-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S2x2048x1024 .f32) (main_arg1 : FVec F S1024x1024 .f32) (main_arg2 : FVec F S1024x1024 .f32) (main_arg3 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S10 : Shape := ⟨1, ![10]⟩
abbrev S4096x1024 : Shape := ⟨2, ![4096, 1024]⟩
abbrev S512x1024 : Shape := ⟨2, ![512, 1024]⟩
abbrev S1x1024 : Shape := ⟨2, ![1, 1024]⟩
abbrev S1x512x1024 : Shape := ⟨3, ![1, 512, 1024]⟩
abbrev S1 : Shape := ⟨1, ![1]⟩
abbrev S512x16 : Shape := ⟨2, ![512, 16]⟩
abbrev S512x64 : Shape := ⟨2, ![512, 64]⟩
abbrev S512x512 : Shape := ⟨2, ![512, 512]⟩
abbrev S512x1 : Shape := ⟨2, ![512, 1]⟩
abbrev S512 : Shape := ⟨1, ![512]⟩

abbrev nBuf : Space → Nat
  | .hbm => 10
  | .vmem => 16
  | .smem => 2
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S1024, .f32⟩
  | .hbm, ⟨4, _⟩ => ⟨S4096x1024, .f32⟩
  | .hbm, ⟨5, _⟩ => ⟨S4096x1024, .bf16⟩
  | .hbm, ⟨6, _⟩ => ⟨S2x2048x1024, .bf16⟩
  | .hbm, ⟨7, _⟩ => ⟨S1024x1024, .bf16⟩
  | .hbm, ⟨8, _⟩ => ⟨S1x1024, .f32⟩
  | .hbm, ⟨9, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S512x1024, .bf16⟩
  | .local _ .vmem, ⟨4, _⟩ => ⟨S512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1024x1024, .bf16⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | .local _ .vmem, ⟨13, _⟩ => ⟨S512x16, .f32⟩
  | .local _ .vmem, ⟨14, _⟩ => ⟨S512x16, .f32⟩
  | .local _ .vmem, ⟨15, _⟩ => ⟨S512x1024, .f32⟩
  | .local _ .smem, ⟨0, _⟩ => ⟨S10, .i32⟩
  | .local _ .smem, ⟨1, _⟩ => ⟨S10, .i32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 10], ![false, false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_cond3 (v1 : BitVec 32) (v3 : BitVec 32) : BitVec 1 :=
  let v4 : BitVec 1 := Scalar.cmpi .eq v3 v1
  let v15 : BitVec 32 := Scalar.extui v4
  let c0_i32_7 : BitVec 32 := 0#32
  let v16 : BitVec 1 := Scalar.cmpi .ne v15 c0_i32_7
  v16

def cc1_transform_0 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_1 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S512x1024_S512x1024_0_0 : (Rect.unit (s := S512x1024) ![0, 0] S512x1024.size inb_S512x1024_S512x1024_0_0).PackedRows (EltTy.packing .bf16)
  shapeCasts_S4096x1024_S2x2048x1024 : S4096x1024.ShapeCasts S2x2048x1024
  shapeCasts_S1024_S1x1024 : S1024.ShapeCasts S1x1024
  numel1_S1 : S1.numel = 1
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  slices_S512x1024_o0_0_S512x64 : S512x1024.Slices ![0, 0] S512x64
  inb_S512x16_S512x1_0_0 : ∀ a, (![0, 0] : Fin 2 → Nat) a + S512x1.size a ≤ S512x16.size a
  h_S512x1 : 0 < S512x1.numel
  reduces_S512x512_S512 : S512x512.Reduces [1] S512
  shapeCasts_S512_S512x1 : S512.ShapeCasts S512x1
  broadcasts_S512x1_S512x512 : S512x1.Broadcasts S512x512
  shapeCasts_S512x1_S512x1 : S512x1.ShapeCasts S512x1
  inb_S512x1024_S512x64_0_0 : ∀ a, (![0, 0] : Fin 2 → Nat) a + S512x64.size a ≤ S512x1024.size a
  h_S512x64 : 0 < S512x64.numel
  broadcasts_S512x1_S512x64 : S512x1.Broadcasts S512x64
  shapeCasts_S512x64_S512x64 : S512x64.ShapeCasts S512x64
  slices_S512x1024_o0_64_S512x64 : S512x1024.Slices ![0, 64] S512x64
  inb_S512x16_S512x1_0_1 : ∀ a, (![0, 1] : Fin 2 → Nat) a + S512x1.size a ≤ S512x16.size a
  inb_S512x1024_S512x64_0_64 : ∀ a, (![0, 64] : Fin 2 → Nat) a + S512x64.size a ≤ S512x1024.size a
  slices_S512x1024_o0_128_S512x64 : S512x1024.Slices ![0, 128] S512x64
  inb_S512x16_S512x1_0_2 : ∀ a, (![0, 2] : Fin 2 → Nat) a + S512x1.size a ≤ S512x16.size a
  inb_S512x1024_S512x64_0_128 : ∀ a, (![0, 128] : Fin 2 → Nat) a + S512x64.size a ≤ S512x1024.size a
  slices_S512x1024_o0_192_S512x64 : S512x1024.Slices ![0, 192] S512x64
  inb_S512x16_S512x1_0_3 : ∀ a, (![0, 3] : Fin 2 → Nat) a + S512x1.size a ≤ S512x16.size a
  inb_S512x1024_S512x64_0_192 : ∀ a, (![0, 192] : Fin 2 → Nat) a + S512x64.size a ≤ S512x1024.size a
  slices_S512x1024_o0_256_S512x64 : S512x1024.Slices ![0, 256] S512x64
  inb_S512x16_S512x1_0_4 : ∀ a, (![0, 4] : Fin 2 → Nat) a + S512x1.size a ≤ S512x16.size a
  inb_S512x1024_S512x64_0_256 : ∀ a, (![0, 256] : Fin 2 → Nat) a + S512x64.size a ≤ S512x1024.size a
  slices_S512x1024_o0_320_S512x64 : S512x1024.Slices ![0, 320] S512x64
  inb_S512x16_S512x1_0_5 : ∀ a, (![0, 5] : Fin 2 → Nat) a + S512x1.size a ≤ S512x16.size a
  inb_S512x1024_S512x64_0_320 : ∀ a, (![0, 320] : Fin 2 → Nat) a + S512x64.size a ≤ S512x1024.size a
  slices_S512x1024_o0_384_S512x64 : S512x1024.Slices ![0, 384] S512x64
  inb_S512x16_S512x1_0_6 : ∀ a, (![0, 6] : Fin 2 → Nat) a + S512x1.size a ≤ S512x16.size a
  inb_S512x1024_S512x64_0_384 : ∀ a, (![0, 384] : Fin 2 → Nat) a + S512x64.size a ≤ S512x1024.size a
  slices_S512x1024_o0_448_S512x64 : S512x1024.Slices ![0, 448] S512x64
  inb_S512x16_S512x1_0_7 : ∀ a, (![0, 7] : Fin 2 → Nat) a + S512x1.size a ≤ S512x16.size a
  inb_S512x1024_S512x64_0_448 : ∀ a, (![0, 448] : Fin 2 → Nat) a + S512x64.size a ≤ S512x1024.size a
  slices_S512x1024_o0_512_S512x64 : S512x1024.Slices ![0, 512] S512x64
  inb_S512x16_S512x1_0_8 : ∀ a, (![0, 8] : Fin 2 → Nat) a + S512x1.size a ≤ S512x16.size a
  inb_S512x1024_S512x64_0_512 : ∀ a, (![0, 512] : Fin 2 → Nat) a + S512x64.size a ≤ S512x1024.size a
  slices_S512x1024_o0_576_S512x64 : S512x1024.Slices ![0, 576] S512x64
  inb_S512x16_S512x1_0_9 : ∀ a, (![0, 9] : Fin 2 → Nat) a + S512x1.size a ≤ S512x16.size a
  inb_S512x1024_S512x64_0_576 : ∀ a, (![0, 576] : Fin 2 → Nat) a + S512x64.size a ≤ S512x1024.size a
  slices_S512x1024_o0_640_S512x64 : S512x1024.Slices ![0, 640] S512x64
  inb_S512x16_S512x1_0_10 : ∀ a, (![0, 10] : Fin 2 → Nat) a + S512x1.size a ≤ S512x16.size a
  inb_S512x1024_S512x64_0_640 : ∀ a, (![0, 640] : Fin 2 → Nat) a + S512x64.size a ≤ S512x1024.size a
  slices_S512x1024_o0_704_S512x64 : S512x1024.Slices ![0, 704] S512x64
  inb_S512x16_S512x1_0_11 : ∀ a, (![0, 11] : Fin 2 → Nat) a + S512x1.size a ≤ S512x16.size a
  inb_S512x1024_S512x64_0_704 : ∀ a, (![0, 704] : Fin 2 → Nat) a + S512x64.size a ≤ S512x1024.size a
  slices_S512x1024_o0_768_S512x64 : S512x1024.Slices ![0, 768] S512x64
  inb_S512x16_S512x1_0_12 : ∀ a, (![0, 12] : Fin 2 → Nat) a + S512x1.size a ≤ S512x16.size a
  inb_S512x1024_S512x64_0_768 : ∀ a, (![0, 768] : Fin 2 → Nat) a + S512x64.size a ≤ S512x1024.size a
  slices_S512x1024_o0_832_S512x64 : S512x1024.Slices ![0, 832] S512x64
  inb_S512x16_S512x1_0_13 : ∀ a, (![0, 13] : Fin 2 → Nat) a + S512x1.size a ≤ S512x16.size a
  inb_S512x1024_S512x64_0_832 : ∀ a, (![0, 832] : Fin 2 → Nat) a + S512x64.size a ≤ S512x1024.size a
  slices_S512x1024_o0_896_S512x64 : S512x1024.Slices ![0, 896] S512x64
  inb_S512x16_S512x1_0_14 : ∀ a, (![0, 14] : Fin 2 → Nat) a + S512x1.size a ≤ S512x16.size a
  inb_S512x1024_S512x64_0_896 : ∀ a, (![0, 896] : Fin 2 → Nat) a + S512x64.size a ≤ S512x1024.size a
  slices_S512x1024_o0_960_S512x64 : S512x1024.Slices ![0, 960] S512x64
  inb_S512x16_S512x1_0_15 : ∀ a, (![0, 15] : Fin 2 → Nat) a + S512x1.size a ≤ S512x16.size a
  inb_S512x1024_S512x64_0_960 : ∀ a, (![0, 960] : Fin 2 → Nat) a + S512x64.size a ≤ S512x1024.size a
  iota_S512x512_d0_w32 : S512x512.Iotas .tc 32 [0]
  iota_S512x512_d1_w32 : S512x512.Iotas .tc 32 [1]
  slices_S512x16_o0_0_S512x1 : S512x16.Slices ![0, 0] S512x1
  slices_S512x16_o0_1_S512x1 : S512x16.Slices ![0, 1] S512x1
  slices_S512x16_o0_2_S512x1 : S512x16.Slices ![0, 2] S512x1
  slices_S512x16_o0_3_S512x1 : S512x16.Slices ![0, 3] S512x1
  slices_S512x16_o0_4_S512x1 : S512x16.Slices ![0, 4] S512x1
  slices_S512x16_o0_5_S512x1 : S512x16.Slices ![0, 5] S512x1
  slices_S512x16_o0_6_S512x1 : S512x16.Slices ![0, 6] S512x1
  slices_S512x16_o0_7_S512x1 : S512x16.Slices ![0, 7] S512x1
  slices_S512x16_o0_8_S512x1 : S512x16.Slices ![0, 8] S512x1
  slices_S512x16_o0_9_S512x1 : S512x16.Slices ![0, 9] S512x1
  slices_S512x16_o0_10_S512x1 : S512x16.Slices ![0, 10] S512x1
  slices_S512x16_o0_11_S512x1 : S512x16.Slices ![0, 11] S512x1
  slices_S512x16_o0_12_S512x1 : S512x16.Slices ![0, 12] S512x1
  slices_S512x16_o0_13_S512x1 : S512x16.Slices ![0, 13] S512x1
  slices_S512x16_o0_14_S512x1 : S512x16.Slices ![0, 14] S512x1
  slices_S512x16_o0_15_S512x1 : S512x16.Slices ![0, 15] S512x1
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  dot_S512x1024_S1024x1024_S512x1024_1_1_0_0_n_n_wf : DotDims.WF S512x1024 S1024x1024 S512x1024 [1] [1] [0] [0] [] []
  dot_S512x64_S512x64_S512x512_1_1_0_0_n_n_wf : DotDims.WF S512x64 S512x64 S512x512 [1] [1] [0] [0] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .bf16 = 32 ∨ (Rect.block (s := S4096x1024) S512x1024.size (cc0_transform_2 i) (hinb0_2 i)).WholeWords (EltTy.packing .bf16)
  hrank1 : 0 < grid1.rank
  k1_off1_inb : ∀ i : grid1.Coords, ∀ a, (k1_off1 i) a + S1.size a ≤ S10.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 false = 2
  hreads1_4 : ∀ {F : FTy → Type} [FloatOps F] (pf : pre1.Contents (Elt F)) (i i' : grid1.Coords), (∀ a, reads1_4 a = true → i a = i' a) → cc1_transform_4 k1_off1_inb numel1_S1 pf i = cc1_transform_4 k1_off1_inb numel1_S1 pf i'

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev spec1_0 : Pipeline.WinSpec sig grid1.rank :=
  Pipeline.WinSpec.ofSpec (Memref.whole main_v2) S1x512x1024.size reads1_0 false false 2 stage1_0 sem1_0 nbuf1_0 hstage1_0

abbrev spec1_1 : Pipeline.WinSpec sig grid1.rank :=
  Pipeline.WinSpec.ofSpec (Memref.whole main_v2) S1x512x1024.size reads1_1 false false 2 stage1_1 sem1_1 nbuf1_1 hstage1_1

abbrev spec1_2 : Pipeline.WinSpec sig grid1.rank :=
  Pipeline.WinSpec.ofSpec (Memref.whole main_v3) S1024x1024.size reads1_2 false true 1 stage1_2 sem1_2 nbuf1_2 hstage1_2

abbrev spec1_3 : Pipeline.WinSpec sig grid1.rank :=
  Pipeline.WinSpec.ofSpec (Memref.whole main_v4) S1x1024.size reads1_3 false true 1 stage1_3 sem1_3 nbuf1_3 hstage1_3

abbrev spec1_4 : Pipeline.WinSpec sig grid1.rank :=
  Pipeline.WinSpec.ofSpec (Memref.whole main_v5) S1x512x1024.size reads1_4 true false 2 stage1_4 sem1_4 nbuf1_4 hstage1_4

abbrev spec1 : Fin 5 → Pipeline.WinSpec sig grid1.rank := fun | 0 => spec1_0 | 1 => spec1_1 | 2 => spec1_2 | 3 => spec1_3 | 4 => spec1_4 | ⟨_ + 5, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | ⟨_ + 5, h⟩ => absurd h (Nat.not_lt.2 (Nat.le_add_left _ _))
abbrev ix1 (pf : pre1.Contents (Elt F)) : (w : Fin 5) → grid1.Coords → Fin (spec1 w).shape.rank → Nat := fun | 0 => cc1_transform_0 k1_off1_inb numel1_S1 pf | 1 => cc1_transform_1 k1_off1_inb numel1_S1 pf | 2 => cc1_transform_2 | 3 => cc1_transform_3 | 4 => cc1_transform_4 k1_off1_inb numel1_S1 pf | ⟨_ + 5, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 | 3 => hreads1_3 | 4 => hreads1_4 pf | ⟨_ + 5, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x512x1024.size a ≤ S2x2048x1024.size a), EltTy.bits .bf16 = 32 ∨ (Rect.block (s := S2x2048x1024) S1x512x1024.size (cc1_transform_0 k1_off1_inb numel1_S1 pf i) h).WholeWords (EltTy.packing .bf16)) ∧
  (∀ i : grid1.Coords, ∃ h : (∀ a, (cc1_transform_1 k1_off1_inb numel1_S1 pf i a + 1) * S1x512x1024.size a ≤ S2x2048x1024.size a), EltTy.bits .bf16 = 32 ∨ (Rect.block (s := S2x2048x1024) S1x512x1024.size (cc1_transform_1 k1_off1_inb numel1_S1 pf i) h).WholeWords (EltTy.packing .bf16)) ∧
  (∀ i : grid1.Coords, ∃ h : (∀ a, (cc1_transform_4 k1_off1_inb numel1_S1 pf i a + 1) * S1x512x1024.size a ≤ S2x2048x1024.size a), EltTy.bits .f32 = 32 ∨ (Rect.block (s := S2x2048x1024) S1x512x1024.size (cc1_transform_4 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => hinb1_2 | 3 => hinb1_3 | 4 => fun i a => (hok.2.2 i).elim fun h _ => h a | ⟨_ + 5, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => hwx1_2 | 3 => hwx1_3 | 4 => fun i => (hok.2.2 i).elim fun _ h => h | ⟨_ + 5, h⟩ => absurd h (Nat.not_lt.2 (Nat.le_add_left _ _))
abbrev idle1 (pf : pre1.Contents (Elt F)) : Fin 5 → grid1.Coords → Bool := fun | 0 => fun _ => false | 1 => fun _ => false | 2 => fun _ => false | 3 => fun _ => false | 4 => fun i => !(k1_cond3 (pf.atD 0 (k1_off1 i)) (pf.atD 1 (k1_off1 i)) == 1#1) | ⟨_ + 5, h⟩ => absurd h (Nat.not_lt.2 (Nat.le_add_left _ _))

class Facts : Prop extends Facts₀ where
  harr1 : ∀ w, (spec1 w).arr.IsWhole

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2048x2048 : Shape := ⟨2, ![2048, 2048]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S1024, .f32⟩
  | .hbm, ⟨4, _⟩ => ⟨S2x2048x1024, .f32⟩
  | .hbm, ⟨5, _⟩ => ⟨S2x2048x16x64, .f32⟩
  | .hbm, ⟨6, _⟩ => ⟨S2x16x2048x64, .f32⟩
  | .hbm, ⟨7, _⟩ => ⟨S2x16x2048x2048, .f32⟩
  | .hbm, ⟨8, _⟩ => ⟨S_, .i1⟩
  | .hbm, ⟨9, _⟩ => ⟨S2048x2048, .i1⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .i1⟩
  | .hbm, ⟨17, _⟩ => ⟨S2048x2048, .i1⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S2x16x2048x2048, .i1⟩
  | .hbm, ⟨22, _⟩ => ⟨S2x16x2048x2048, .f32⟩
  | .hbm, ⟨23, _⟩ => ⟨S2x16x2048x2048, .f32⟩
  | .hbm, ⟨24, _⟩ => ⟨S_, .f32⟩
  | .hbm, ⟨25, _⟩ => ⟨S2x16x2048x2048, .f32⟩
  | .hbm, ⟨26, _⟩ => ⟨S2x16x2048x2048, .f32⟩
  | .hbm, ⟨27, _⟩ => ⟨S_, .f32⟩
  | .hbm, ⟨28, _⟩ => ⟨S2x16x2048, .f32⟩
  | .hbm, ⟨29, _⟩ => ⟨S_, .f32⟩
  | .hbm, ⟨30, _⟩ => ⟨S2x16x2048, .f32⟩
  | .hbm, ⟨31, _⟩ => ⟨S2x16x2048, .f32⟩
  | .hbm, ⟨32, _⟩ => ⟨S2x16x2048x1, .f32⟩
  | .hbm, ⟨33, _⟩ => ⟨S2x16x2048x2048, .f32⟩
  | .hbm, ⟨34, _⟩ => ⟨S2x16x2048x2048, .f32⟩
  | .hbm, ⟨35, _⟩ => ⟨S2x16x2048x2048, .f32⟩
  | .hbm, ⟨36, _⟩ => ⟨S_, .f32⟩
  | .hbm, ⟨37, _⟩ => ⟨S2x16x2048, .f32⟩
  | .hbm, ⟨38, _⟩ => ⟨S2x16x2048x1, .f32⟩
  | .hbm, ⟨39, _⟩ => ⟨S2x16x2048x2048, .f32⟩
  | .hbm, ⟨40, _⟩ => ⟨S2x16x2048x2048, .f32⟩
  | .hbm, ⟨41, _⟩ => ⟨S2x16x2048x64, .f32⟩
  | .hbm, ⟨42, _⟩ => ⟨S2x2048x16x64, .f32⟩
  | .hbm, ⟨43, _⟩ => ⟨S2x2048x1024, .f32⟩
  | .hbm, ⟨44, _⟩ => ⟨S2x2048x1024, .f32⟩
  | .hbm, ⟨45, _⟩ => ⟨S1x1x1024, .f32⟩
  | .hbm, ⟨46, _⟩ => ⟨S2x2048x1024, .f32⟩
  | .hbm, ⟨47, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v5 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2048x2048 : S_.BroadcastsInDim S2048x2048 (![] : Fin 0 → Fin S2048x2048.rank)
  bcast_S2048x2048_S2x16x2048x2048_2_3 : S2048x2048.BroadcastsInDim S2x16x2048x2048 (![2, 3] : Fin 2 → Fin S2x16x2048x2048.rank)
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.K0.lean ====
/- The first call's body at one grid point: it reads its two input blocks whole and stores, over the whole output block,
   the first block's product with the second's transpose. From that: the call's proof data and its body obligation. -/
import proofs.«408594_j31722628448459_3_alg».proof.Proof.Gen.Kernel.Launch
import proofs.«408594_j31722628448459_3_alg».proof.Proof.Gen.Kernel.Skeleton
import proofs.«408594_j31722628448459_3_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic
import Idealize.ShloMosaic.PureOps.BitExact

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array under V. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rOut0 : Rect S512x1024 := Rect.unit (s := S512x1024) ![0, 0] S512x1024.size inb_S512x1024_S512x1024_0_0
abbrev rW0 : Rect S1024x1024 := Rect.unit (s := S1024x1024) ![0, 0] S1024x1024.size inb_S1024x1024_S1024x1024_0_0

/-- The output block as a function of the two input blocks. -/
def out0 (x0 : Vec F S512x1024 .f32) (x1 : Vec F S1024x1024 .f32) : Vec F S512x1024 .bf16 :=
  View.canon [⟨rOut0, k0_pay1 (View.ld x0 rOut0) (View.ld x1 rW0)⟩]

/-- The one store covers the whole output block, so what it leaves does not depend on what was there. -/
theorem sound_kernel0 (c : Dev nD) (E : Set ℕ) (i : grid0.Coords) (arg1 : Memref sig .tc .vmem S512x1024 .f32) (harg1 : arg1.IsWhole)
    (arg2 : Memref sig .tc .vmem S1024x1024 .f32) (harg2 : arg2.IsWhole) (arg3 : Memref sig .tc .vmem S512x1024 .bf16) (harg3 : arg3.IsWhole)
    (x0 : Vec F S512x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0 x0 x1)) -∗ K ⟨⟩))
      ⊢ wp frame (wpE (defs₀ (F := F)) Variants.none c none) E (cc0__linear_bf16_kernel i arg1 harg1 arg2 harg2 arg3 harg3) K := by
  simp only [cc0__linear_bf16_kernel_eq_skeleton]; unfold cc0__linear_bf16_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S512x1024.size (by rfl))

/-- After the body each input block is unchanged and the output block is out0 of the two. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

/-- The body leaves each input block as it found it, so before the body an input holds its block at every point. -/
theorem before0_in (c : Dev nD) (t : Fin cfg0.N) :
    (∀ d, (dat0 V c).before 0 t d = iblk0 V c 0 t) ∧ ∀ d, (dat0 V c).before 1 t d = iblk0 V c 1 t := by
  constructor <;> exact fun d => (dat0 V c).before_in_eq_fetched _ rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) fun _ =>
      iprop((dat0 V c).Φ t.castSucc ∗ (dat0 V c).owesAt () t.castSucc
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t))
  unfold bodyAt0
  simp only [(before0_in V c t).1, (before0_in V c t).2, after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe

end Cert.Kernel.Hand

end
-- ==== Proof.K1Defs.lean ====
/- Names for the attention body's two index tables and three scratch buffers, the two table words read at a grid point,
   the three conditions computed from them, and the types of the store lists a run leaves. -/
import proofs.«408594_j31722628448459_3_alg».proof.Proof.Gen.Kernel.Launch
import proofs.«408594_j31722628448459_3_alg».proof.Proof.Gen.Kernel.Skeleton
import proofs.«408594_j31722628448459_3_alg».proof.Proof.Gen.Kernel.Points
import Idealize.ShloMosaic.Lib.Pipeline.FrameBody
import Idealize.ShloMosaic.Lib.Ring
import Idealize.ShloMosaic.Lib.Tactic
import Idealize.ShloMosaic.PureOps.BitExact

noncomputable section

namespace Cert.Kernel.Hand

open Cert.Kernel Cert.Kernel.Gen
open Idealize.ShloMosaic Idealize.ShloMosaic.TcCoe
open Idealize.SL Idealize.SL.RA Idealize.SL.BI
open scoped Idealize.SL.BI

variable {F : FTy → Type} [FloatOps F]

local notation "𝕄" => MT nD τ sig Unit (Elt F) ℕ (UR sig nD τ) ℕ

abbrev tbM0 : Memref sig .tc .smem S10 .i32 := Memref.whole main_c
abbrev tbM1 : Memref sig .tc .smem S10 .i32 := Memref.whole main_c_0
abbrev scM0 : Memref sig .tc .vmem S512x16 .f32 := Memref.whole cc1_scratch0
abbrev scM1 : Memref sig .tc .vmem S512x16 .f32 := Memref.whole cc1_scratch1
abbrev scM2 : Memref sig .tc .vmem S512x1024 .f32 := Memref.whole cc1_scratch2
abbrev BufOf (c : Dev nD) {sp : Space} {S : Shape} {e : EltTy} (M : Memref sig .tc sp S e) : Type := Buf (Elt F) (M.view.loc (c : Thread nD τ))
abbrev tbPt (c : Dev nD) {S : Shape} {e : EltTy} (M : Memref sig .tc .smem S e) (f : BufOf (F := F) c M) : sProp 𝕄 :=
  M.view.loc (c : Thread nD τ) ↦{fullShare} f
abbrev scPt (c : Dev nD) {S : Shape} {e : EltTy} (M : Memref sig .tc .vmem S e) (f : BufOf (F := F) c M) : sProp 𝕄 :=
  M.view.loc (c : Thread nD τ) ↦{fullShare} f
abbrev wd0 (c : Dev nD) (i : grid1.Coords) (xt0 : BufOf (F := F) c tbM0) : BitVec 32 :=
  tbM0.view.readAt (Elt F) (Rect.unit (s := S10) (k1_off1 i) S1.size (k1_off1_inb i)).toLoadRect xt0 (Shape.Idx.first (numel1_S1.symm ▸ Nat.one_pos))
abbrev wd1 (c : Dev nD) (i : grid1.Coords) (xt1 : BufOf (F := F) c tbM1) : BitVec 32 :=
  tbM1.view.readAt (Elt F) (Rect.unit (s := S10) (k1_off1 i) S1.size (k1_off1_inb i)).toLoadRect xt1 (Shape.Idx.first (numel1_S1.symm ▸ Nat.one_pos))
abbrev cInit (w1 : BitVec 32) : Prop := Scalar.cmpi .ne (Scalar.extui (Scalar.cmpi .eq w1 0#32) : BitVec 32) 0#32 = 1#1
abbrev cOff (w0 w1 : BitVec 32) : Prop := Scalar.cmpi .ne (Scalar.extui (Scalar.xori (Scalar.cmpi .eq w1 w0) 1#1) : BitVec 32) 0#32 = 1#1
abbrev cDiag (w0 w1 : BitVec 32) : Prop := k1_cond3 w0 w1 = 1#1
abbrev PcsOut : Type := List (View.Piece (Elt F) S1x512x1024 .f32)
abbrev PcsCol : Type := List (View.Piece (Elt F) S512x16 .f32)
abbrev PcsAcc : Type := List (View.Piece (Elt F) S512x1024 .f32)

end Cert.Kernel.Hand

end
-- ==== Proof.K1Run.lean ====
/- The attention body run at one grid point, in the four cases its three conditions allow (key tile 0 or later; the query's own tile or not):
   the stores it leaves in the scratch buffers, and in the output block where that is written, as lists the run itself finds. -/
import proofs.«408594_j31722628448459_3_alg».proof.Proof.K1Defs

set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

/-- A whole block is owned at `x` exactly when it holds the raw contents that read `x`. -/
theorem owns_unread (c : Dev nD) {sp : Space} {S : Shape} {e : EltTy} {M : Memref sig (c : Thread nD τ).2.kind sp S e} (h : Memref.IsWhole (κ := .tc) M)
    (x : Vec F S e) : (owns (c : Thread nD τ) M fullShare x : sProp 𝕄) = (M.view.loc c ↦[M.view.set]{fullShare} h.unread x) := by
  refine BI.Entails.antisymm (?_ : owns (c : Thread nD τ) M fullShare x ⊢ _) (?_ : _ ⊢ owns (c : Thread nD τ) M fullShare x) <;> unfold owns
  · iintro ⟨%f, %hf, H⟩; obtain rfl := h.eq_unread hf; iexact H
  · iintro H; iexists _; isplitr; · ipureintro; exact h.read_unread x
    iexact H

variable (c : Dev nD) (i : grid1.Coords)
  (arg4 : Memref sig .tc .vmem S1x512x1024 .bf16) (harg4 : arg4.IsWhole) (arg5 : Memref sig .tc .vmem S1x512x1024 .bf16) (harg5 : arg5.IsWhole)
  (arg6 : Memref sig .tc .vmem S1024x1024 .bf16) (harg6 : arg6.IsWhole) (arg7 : Memref sig .tc .vmem S1x1024 .f32) (harg7 : arg7.IsWhole)
  (arg8 : Memref sig .tc .vmem S1x512x1024 .f32) (harg8 : arg8.IsWhole)
  (x4 x5 : Vec F S1x512x1024 .bf16) (x6 : Vec F S1024x1024 .bf16) (x7 : Vec F S1x1024 .f32)
  (xt0 : BufOf (F := F) c tbM0) (xt1 : BufOf (F := F) c tbM1)

/-- Key tile 0, the query's own: the statistics are reset, the masked update made, then the result normalised, projected and stored. -/
def kernelRun1_A (h7 : cInit (wd1 c i xt1)) (h14 : ¬ cOff (wd0 c i xt0) (wd1 c i xt1)) (h3 : cDiag (wd0 c i xt0) (wd1 c i xt1)) :
    { W : PcsOut × PcsCol × PcsCol × PcsAcc // ∀ (s0 : BufOf c scM0) (s1 : BufOf c scM1) (s2 : BufOf c scM2) (E : Set ℕ) (K : PUnit → sProp 𝕄),
      iprop(owns c arg4 fullShare x4 ∗ owns c arg5 fullShare x5 ∗ owns c arg6 fullShare x6 ∗ owns c arg7 fullShare x7 ∗ (∃ d, owns c arg8 fullShare d)
          ∗ tbPt c tbM0 xt0 ∗ tbPt c tbM1 xt1 ∗ scPt c scM0 s0 ∗ scPt c scM1 s1 ∗ scPt c scM2 s2
          ∗ (iprop(owns c arg4 fullShare x4 ∗ owns c arg5 fullShare x5 ∗ owns c arg6 fullShare x6 ∗ owns c arg7 fullShare x7 ∗ (∃ f, arg8.view.loc c ↦[arg8.view.set]{fullShare} arg8.view.writes (Elt F) f W.1)
              ∗ tbPt c tbM0 xt0 ∗ tbPt c tbM1 xt1
              ∗ (∃ f, scM0.view.loc c ↦{fullShare} scM0.view.writes (Elt F) f W.2.1)
              ∗ (∃ f, scM1.view.loc c ↦{fullShare} scM1.view.writes (Elt F) f W.2.2.1)
              ∗ (∃ f, scM2.view.loc c ↦{fullShare} scM2.view.writes (Elt F) f W.2.2.2)) -∗ K ⟨⟩))
        ⊢ wp frame (wpE defs₀ .none c none) E
        (cc1__attn_wo_kernel i tbM0 (Memref.isWhole_whole _) tbM1 (Memref.isWhole_whole _) arg4 harg4 arg5 harg5 arg6 harg6 arg7 harg7 arg8 harg8
          scM0 (Memref.isWhole_whole _) scM1 (Memref.isWhole_whole _) scM2 (Memref.isWhole_whole _)) K } := by
  refine ⟨⟨?_, ?_, ?_, ?_⟩, fun s0 s1 s2 E K => ?run⟩
  case run =>
    simp only [cc1__attn_wo_kernel_eq_skeleton]; unfold cc1__attn_wo_kernel_skel
    rw [owns_unread c harg4, owns_unread c harg5, owns_unread c harg6, owns_unread c harg7]; unfold owns
    iintro ⟨H4, H5, H6, H7, ⟨%d8, %f8, -, H8⟩, HT0, HT1, HS0, HS1, HS2, Hk⟩
    sl_exec (disch := first | sl_exact h7 | sl_exact h14 | sl_exact h3)
    sl_step
    iapply Hk
    iframe
    isplitl [H8]; · iexists _; iexact H8
    isplitl [HS0]; · iexists _; iexact HS0
    isplitl [HS1]; · iexists _; iexact HS1
    iexists _; iexact HS2

/-- Key tile 0, not the query's own: the statistics are reset and the unmasked update made; the output block is kept. -/
def kernelRun1_B (h7 : cInit (wd1 c i xt1)) (h14 : cOff (wd0 c i xt0) (wd1 c i xt1)) (h3 : ¬ cDiag (wd0 c i xt0) (wd1 c i xt1)) :
    { W : PcsCol × PcsCol × PcsAcc // ∀ (d8 : Vec F S1x512x1024 .f32) (s0 : BufOf c scM0) (s1 : BufOf c scM1) (s2 : BufOf c scM2) (E : Set ℕ) (K : PUnit → sProp 𝕄),
      iprop(owns c arg4 fullShare x4 ∗ owns c arg5 fullShare x5 ∗ owns c arg6 fullShare x6 ∗ owns c arg7 fullShare x7 ∗ owns c arg8 fullShare d8
          ∗ tbPt c tbM0 xt0 ∗ tbPt c tbM1 xt1 ∗ scPt c scM0 s0 ∗ scPt c scM1 s1 ∗ scPt c scM2 s2
          ∗ (iprop(owns c arg4 fullShare x4 ∗ owns c arg5 fullShare x5 ∗ owns c arg6 fullShare x6 ∗ owns c arg7 fullShare x7 ∗ owns c arg8 fullShare d8
              ∗ tbPt c tbM0 xt0 ∗ tbPt c tbM1 xt1
              ∗ (∃ f, scM0.view.loc c ↦{fullShare} scM0.view.writes (Elt F) f W.1)
              ∗ (∃ f, scM1.view.loc c ↦{fullShare} scM1.view.writes (Elt F) f W.2.1)
              ∗ (∃ f, scM2.view.loc c ↦{fullShare} scM2.view.writes (Elt F) f W.2.2)) -∗ K ⟨⟩))
        ⊢ wp frame (wpE defs₀ .none c none) E
        (cc1__attn_wo_kernel i tbM0 (Memref.isWhole_whole _) tbM1 (Memref.isWhole_whole _) arg4 harg4 arg5 harg5 arg6 harg6 arg7 harg7 arg8 harg8
          scM0 (Memref.isWhole_whole _) scM1 (Memref.isWhole_whole _) scM2 (Memref.isWhole_whole _)) K } := by
  refine ⟨⟨?_, ?_, ?_⟩, fun d8 s0 s1 s2 E K => ?run⟩
  case run =>
    simp only [cc1__attn_wo_kernel_eq_skeleton]; unfold cc1__attn_wo_kernel_skel
    rw [owns_unread c harg4, owns_unread c harg5, owns_unread c harg6, owns_unread c harg7, owns_unread c harg8]
    iintro ⟨H4, H5, H6, H7, H8, HT0, HT1, HS0, HS1, HS2, Hk⟩
    sl_exec (disch := first | sl_exact h7 | sl_exact h14 | sl_exact h3)
    sl_step
    iapply Hk
    iframe
    isplitl [HS0]; · iexists _; iexact HS0
    isplitl [HS1]; · iexists _; iexact HS1
    iexists _; iexact HS2

/-- A later key tile, not the query's own: the unmasked update of the statistics found; the output block is kept. -/
def kernelRun1_C (s0 : BufOf c scM0) (s1 : BufOf c scM1) (s2 : BufOf c scM2)
    (h7 : ¬ cInit (wd1 c i xt1)) (h14 : cOff (wd0 c i xt0) (wd1 c i xt1)) (h3 : ¬ cDiag (wd0 c i xt0) (wd1 c i xt1)) :
    { W : PcsCol × PcsCol × PcsAcc // ∀ (d8 : Vec F S1x512x1024 .f32) (E : Set ℕ) (K : PUnit → sProp 𝕄),
      iprop(owns c arg4 fullShare x4 ∗ owns c arg5 fullShare x5 ∗ owns c arg6 fullShare x6 ∗ owns c arg7 fullShare x7 ∗ owns c arg8 fullShare d8
          ∗ tbPt c tbM0 xt0 ∗ tbPt c tbM1 xt1 ∗ scPt c scM0 s0 ∗ scPt c scM1 s1 ∗ scPt c scM2 s2
          ∗ (iprop(owns c arg4 fullShare x4 ∗ owns c arg5 fullShare x5 ∗ owns c arg6 fullShare x6 ∗ owns c arg7 fullShare x7 ∗ owns c arg8 fullShare d8
              ∗ tbPt c tbM0 xt0 ∗ tbPt c tbM1 xt1
              ∗ (∃ f, scM0.view.loc c ↦{fullShare} scM0.view.writes (Elt F) f W.1)
              ∗ (∃ f, scM1.view.loc c ↦{fullShare} scM1.view.writes (Elt F) f W.2.1)
              ∗ (∃ f, scM2.view.loc c ↦{fullShare} scM2.view.writes (Elt F) f W.2.2)) -∗ K ⟨⟩))
        ⊢ wp frame (wpE defs₀ .none c none) E
        (cc1__attn_wo_kernel i tbM0 (Memref.isWhole_whole _) tbM1 (Memref.isWhole_whole _) arg4 harg4 arg5 harg5 arg6 harg6 arg7 harg7 arg8 harg8
          scM0 (Memref.isWhole_whole _) scM1 (Memref.isWhole_whole _) scM2 (Memref.isWhole_whole _)) K } := by
  refine ⟨⟨?_, ?_, ?_⟩, fun d8 E K => ?run⟩
  case run =>
    simp only [cc1__attn_wo_kernel_eq_skeleton]; unfold cc1__attn_wo_kernel_skel
    rw [owns_unread c harg4, owns_unread c harg5, owns_unread c harg6, owns_unread c harg7, owns_unread c harg8]
    iintro ⟨H4, H5, H6, H7, H8, HT0, HT1, HS0, HS1, HS2, Hk⟩
    sl_exec (disch := first | sl_exact h7 | sl_exact h14 | sl_exact h3)
    sl_step
    iapply Hk
    iframe
    isplitl [HS0]; · iexists _; iexact HS0
    isplitl [HS1]; · iexists _; iexact HS1
    iexists _; iexact HS2

/-- A later key tile, the query's own: the masked update of the statistics found, then the result normalised, projected and stored. -/
def kernelRun1_D (s0 : BufOf c scM0) (s1 : BufOf c scM1) (s2 : BufOf c scM2)
    (h7 : ¬ cInit (wd1 c i xt1)) (h14 : ¬ cOff (wd0 c i xt0) (wd1 c i xt1)) (h3 : cDiag (wd0 c i xt0) (wd1 c i xt1)) :
    { W : PcsOut × PcsCol × PcsCol × PcsAcc // ∀ (E : Set ℕ) (K : PUnit → sProp 𝕄),
      iprop(owns c arg4 fullShare x4 ∗ owns c arg5 fullShare x5 ∗ owns c arg6 fullShare x6 ∗ owns c arg7 fullShare x7 ∗ (∃ d, owns c arg8 fullShare d)
          ∗ tbPt c tbM0 xt0 ∗ tbPt c tbM1 xt1 ∗ scPt c scM0 s0 ∗ scPt c scM1 s1 ∗ scPt c scM2 s2
          ∗ (iprop(owns c arg4 fullShare x4 ∗ owns c arg5 fullShare x5 ∗ owns c arg6 fullShare x6 ∗ owns c arg7 fullShare x7 ∗ (∃ f, arg8.view.loc c ↦[arg8.view.set]{fullShare} arg8.view.writes (Elt F) f W.1)
              ∗ tbPt c tbM0 xt0 ∗ tbPt c tbM1 xt1
              ∗ (∃ f, scM0.view.loc c ↦{fullShare} scM0.view.writes (Elt F) f W.2.1)
              ∗ (∃ f, scM1.view.loc c ↦{fullShare} scM1.view.writes (Elt F) f W.2.2.1)
              ∗ (∃ f, scM2.view.loc c ↦{fullShare} scM2.view.writes (Elt F) f W.2.2.2)) -∗ K ⟨⟩))
        ⊢ wp frame (wpE defs₀ .none c none) E
        (cc1__attn_wo_kernel i tbM0 (Memref.isWhole_whole _) tbM1 (Memref.isWhole_whole _) arg4 harg4 arg5 harg5 arg6 harg6 arg7 harg7 arg8 harg8
          scM0 (Memref.isWhole_whole _) scM1 (Memref.isWhole_whole _) scM2 (Memref.isWhole_whole _)) K } := by
  refine ⟨⟨?_, ?_, ?_, ?_⟩, fun E K => ?run⟩
  case run =>
    simp only [cc1__attn_wo_kernel_eq_skeleton]; unfold cc1__attn_wo_kernel_skel
    rw [owns_unread c harg4, owns_unread c harg5, owns_unread c harg6, owns_unread c harg7]; unfold owns
    iintro ⟨H4, H5, H6, H7, ⟨%d8, %f8, -, H8⟩, HT0, HT1, HS0, HS1, HS2, Hk⟩
    sl_exec (disch := first | sl_exact h7 | sl_exact h14 | sl_exact h3)
    sl_step
    iapply Hk
    iframe
    isplitl [H8]; · iexists _; iexact H8
    isplitl [HS0]; · iexists _; iexact HS0
    isplitl [HS1]; · iexists _; iexact HS1
    iexists _; iexact HS2

end Cert.Kernel.Hand

end
-- ==== Proof.K1Data.lean ====
/- The second call's grid at the tables the host constants hold, the scratch statistics point by point (by recursion
   through the body's run in each point's case), and the proof data: the output tile is stored at a row's diagonal point only. -/
import proofs.«408594_j31722628448459_3_alg».proof.Proof.K1Run

noncomputable section

namespace Cert.Kernel.Hand

open Cert.Kernel Cert.Kernel.Gen
open Idealize.ShloMosaic Idealize.ShloMosaic.TcCoe
open Idealize.SL Idealize.SL.RA Idealize.SL.BI Idealize.SL.BI.BIBase Idealize.SL.Sem
open Idealize.ShloMosaic.Pipeline (Dat)

local notation "FF" => Bits
local notation "𝕄F" => MT nD τ sig Unit (Elt FF) ℕ (UR sig nD τ) ℕ

def tblLit : pre1.Contents (Elt FF) := fun
  | ⟨0, _⟩ => fun i => lit0 (S10.rowMajor i)
  | ⟨1, _⟩ => fun i => lit1 (S10.rowMajor i)
  | ⟨_ + 2, h⟩ => absurd h (Nat.not_lt.2 (Nat.le_add_left _ _))

theorem okLit : ok1 (F := FF) tblLit := by decide +kernel

abbrev admL : (pcfg1 (F := FF)).Adm := ⟨tblLit, okLit⟩
abbrev cfgL : Pipeline.Cfg sig Λ₀ := cfg1 (F := FF) admL

theorem N_L : cfgL.N = 20 := by decide +kernel

def isInit (c : Dev nD) (t : Fin cfgL.N) : Prop := cInit (wd1 (F := FF) c (cfgL.grid.coords t) (tblLit 1))
def isDiag (c : Dev nD) (t : Fin cfgL.N) : Prop := cDiag (wd0 (F := FF) c (cfgL.grid.coords t) (tblLit 0)) (wd1 (F := FF) c (cfgL.grid.coords t) (tblLit 1))
instance (c : Dev nD) (t : Fin cfgL.N) : Decidable (isInit c t) := by unfold isInit; infer_instance
instance (c : Dev nD) (t : Fin cfgL.N) : Decidable (isDiag c t) := by unfold isDiag; infer_instance

theorem cOff_iff (w0 w1 : BitVec 32) : cOff w0 w1 ↔ ¬ cDiag w0 w1 := by
  unfold cOff cDiag k1_cond3
  rcases BitVec.eq_zero_or_eq_one (Scalar.cmpi .eq w1 w0) with h | h <;> rw [h] <;> decide

theorem init_zero : ∀ t : Fin cfgL.N, t.val = 0 → isInit (0 : Dev nD) t := by decide +kernel
theorem idle_iff : ∀ t : Fin cfgL.N, cfgL.idle 4 (cfgL.grid.coords t) = !decide (isDiag (0 : Dev nD) t) := by decide +kernel
theorem idle_noflush : ∀ t : Fin cfgL.N, cfgL.idle 4 (cfgL.grid.coords t) = true → (cfgL.win 4).flush t = false := by decide +kernel

theorem dev0 (c : Dev nD) : c = 0 := Subsingleton.elim _ _

section Region1

variable (V : (c : Dev nD) → (b : Ref sig .tc) → Buf (Elt FF) ((c : Thread nD τ).loc b))

def iblk1 (c : Dev nD) (w : Fin cfgL.W) (t : Fin cfgL.N) : ((cfgL.win w).xblock (cfgL.grid.coords t)).Idx → Elt FF (cfgL.win w).elt :=
  ((cfgL.win w).blk t).view.read (Elt FF) (V c (Pipeline.arrRef spec1 w))

abbrev ms0 (t : Fin cfgL.N) : Memref sig .tc .vmem S1x512x1024 .bf16 := spec1_0.stage (cfgL.slots t 0)
abbrev hs0 (t : Fin cfgL.N) : (ms0 t).IsWhole := hstage1_0 ((cfgL.slots t 0).cast nbuf1_0)
abbrev ms1 (t : Fin cfgL.N) : Memref sig .tc .vmem S1x512x1024 .bf16 := spec1_1.stage (cfgL.slots t 1)
abbrev hs1 (t : Fin cfgL.N) : (ms1 t).IsWhole := hstage1_1 ((cfgL.slots t 1).cast nbuf1_1)
abbrev ms2 (t : Fin cfgL.N) : Memref sig .tc .vmem S1024x1024 .bf16 := spec1_2.stage (cfgL.slots t 2)
abbrev hs2 (t : Fin cfgL.N) : (ms2 t).IsWhole := hstage1_2 ((cfgL.slots t 2).cast nbuf1_2)
abbrev ms3 (t : Fin cfgL.N) : Memref sig .tc .vmem S1x1024 .f32 := spec1_3.stage (cfgL.slots t 3)
abbrev hs3 (t : Fin cfgL.N) : (ms3 t).IsWhole := hstage1_3 ((cfgL.slots t 3).cast nbuf1_3)
abbrev ms4 (t : Fin cfgL.N) : Memref sig .tc .vmem S1x512x1024 .f32 := spec1_4.stage (cfgL.slots t 4)
abbrev hs4 (t : Fin cfgL.N) : (ms4 t).IsWhole := hstage1_4 ((cfgL.slots t 4).cast nbuf1_4)

abbrev bodyAt1 (t : Fin cfgL.N) : Prog (TpuEff nD τ sig (Elt FF) Λ₀ .tc) PUnit :=
  cc1__attn_wo_kernel (cfgL.grid.coords t) tbM0 (Memref.isWhole_whole _) tbM1 (Memref.isWhole_whole _) (ms0 t) (hs0 t) (ms1 t) (hs1 t)
    (ms2 t) (hs2 t) (ms3 t) (hs3 t) (ms4 t) (hs4 t) scM0 (Memref.isWhole_whole _) scM1 (Memref.isWhole_whole _) scM2 (Memref.isWhole_whole _)

abbrev St : Type := Vec FF S512x16 .f32 × Vec FF S512x16 .f32 × Vec FF S512x1024 .f32

def junkSt : St := (fun _ => Classical.arbitrary _, fun _ => Classical.arbitrary _, fun _ => Classical.arbitrary _)

theorem notOff_of_diag {c : Dev nD} {t : Fin cfgL.N} (h : isDiag c t) :
    ¬ cOff (wd0 (F := FF) c (cfgL.grid.coords t) (tblLit 0)) (wd1 (F := FF) c (cfgL.grid.coords t) (tblLit 1)) :=
  fun ho => (cOff_iff _ _).mp ho h
theorem off_of_notDiag {c : Dev nD} {t : Fin cfgL.N} (h : ¬ isDiag c t) :
    cOff (wd0 (F := FF) c (cfgL.grid.coords t) (tblLit 0)) (wd1 (F := FF) c (cfgL.grid.coords t) (tblLit 1)) :=
  (cOff_iff _ _).mpr h

abbrev runA (c : Dev nD) (t : Fin cfgL.N) (hI : isInit c t) (hD : isDiag c t) :=
  kernelRun1_A (F := FF) c (cfgL.grid.coords t) (ms0 t) (hs0 t) (ms1 t) (hs1 t) (ms2 t) (hs2 t) (ms3 t) (hs3 t) (ms4 t) (hs4 t)
    (iblk1 V c 0 t) (iblk1 V c 1 t) (iblk1 V c 2 t) (iblk1 V c 3 t) (tblLit 0) (tblLit 1) hI (notOff_of_diag hD) hD
abbrev runB (c : Dev nD) (t : Fin cfgL.N) (hI : isInit c t) (hD : ¬ isDiag c t) :=
  kernelRun1_B (F := FF) c (cfgL.grid.coords t) (ms0 t) (hs0 t) (ms1 t) (hs1 t) (ms2 t) (hs2 t) (ms3 t) (hs3 t) (ms4 t) (hs4 t)
    (iblk1 V c 0 t) (iblk1 V c 1 t) (iblk1 V c 2 t) (iblk1 V c 3 t) (tblLit 0) (tblLit 1) hI (off_of_notDiag hD) hD
abbrev runC (c : Dev nD) (t : Fin cfgL.N) (s : St) (hI : ¬ isInit c t) (hD : ¬ isDiag c t) :=
  kernelRun1_C (F := FF) c (cfgL.grid.coords t) (ms0 t) (hs0 t) (ms1 t) (hs1 t) (ms2 t) (hs2 t) (ms3 t) (hs3 t) (ms4 t) (hs4 t)
    (iblk1 V c 0 t) (iblk1 V c 1 t) (iblk1 V c 2 t) (iblk1 V c 3 t) (tblLit 0) (tblLit 1) s.1 s.2.1 s.2.2 hI (off_of_notDiag hD) hD
abbrev runD (c : Dev nD) (t : Fin cfgL.N) (s : St) (hI : ¬ isInit c t) (hD : isDiag c t) :=
  kernelRun1_D (F := FF) c (cfgL.grid.coords t) (ms0 t) (hs0 t) (ms1 t) (hs1 t) (ms2 t) (hs2 t) (ms3 t) (hs3 t) (ms4 t) (hs4 t)
    (iblk1 V c 0 t) (iblk1 V c 1 t) (iblk1 V c 2 t) (iblk1 V c 3 t) (tblLit 0) (tblLit 1) s.1 s.2.1 s.2.2 hI (notOff_of_diag hD) hD

def stepSt (c : Dev nD) (t : Fin cfgL.N) (s : St) : St :=
  if hI : isInit c t then
    if hD : isDiag c t then (View.canon (runA V c t hI hD).1.2.1, View.canon (runA V c t hI hD).1.2.2.1, View.canon (runA V c t hI hD).1.2.2.2)
    else (View.canon (runB V c t hI hD).1.1, View.canon (runB V c t hI hD).1.2.1, View.canon (runB V c t hI hD).1.2.2)
  else
    if hD : isDiag c t then (View.canon (runD V c t s hI hD).1.2.1, View.canon (runD V c t s hI hD).1.2.2.1, View.canon (runD V c t s hI hD).1.2.2.2)
    else (View.canon (runC V c t s hI hD).1.1, View.canon (runC V c t s hI hD).1.2.1, View.canon (runC V c t s hI hD).1.2.2)

def stAt (c : Dev nD) : Nat → St
  | 0 => junkSt
  | n + 1 => if h : n < cfgL.N then stepSt V c ⟨n, h⟩ (stAt c n) else stAt c n

theorem stAt_succ (c : Dev nD) (t : Fin cfgL.N) : stAt V c (t.val + 1) = stepSt V c t (stAt V c t.val) := by
  rw [stAt, dif_pos t.isLt]

def outAt (c : Dev nD) (t : Fin cfgL.N) : Vec FF S1x512x1024 .f32 :=
  if hI : isInit c t then
    if hD : isDiag c t then View.canon (runA V c t hI hD).1.1 else fun _ => Classical.arbitrary _
  else
    if hD : isDiag c t then View.canon (runD V c t (stAt V c t.val) hI hD).1.1 else fun _ => Classical.arbitrary _

def PhiAt (c : Dev nD) (t : Fin (cfgL.N + 1)) : sProp 𝕄F :=
  iprop(Pipeline.prefHeld pre1 c (fun _ => fullShare) tblLit
    ∗ (∃ f, ((c : Thread nD τ).loc cc0_stg0_0) ↦{fullShare} f)
    ∗ (∃ f, ((c : Thread nD τ).loc cc0_stg0_1) ↦{fullShare} f)
    ∗ (∃ f, ((c : Thread nD τ).loc cc0_stg1_0) ↦{fullShare} f)
    ∗ (∃ f, ((c : Thread nD τ).loc cc0_stg2_0) ↦{fullShare} f)
    ∗ (∃ f, ((c : Thread nD τ).loc cc0_stg2_1) ↦{fullShare} f)
    ∗ ∃ s : St, ⌜t.val ≠ 0 → s = stAt V c t.val⌝ ∗ scPt c scM0 s.1 ∗ scPt c scM1 s.2.1 ∗ scPt c scM2 s.2.2)

def dat1 (c : Dev nD) : Dat τ (Elt FF) Unit ℕ (UR sig nD τ) ℕ cfgL c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt V c t
  Φ t := PhiAt V c t
  q w := match w with
    | ⟨0, _⟩ => fullShare.left
    | ⟨1, _⟩ => fullShare.right
    | ⟨2, _⟩ => fullShare
    | ⟨3, _⟩ => fullShare
    | ⟨4, _⟩ => fullShare
  owed _ := 0

theorem after1_4 (c : Dev nD) (t : Fin cfgL.N) : (dat1 V c).after 4 t = outAt V c t := by dsimp only [dat1]

end Region1

end Cert.Kernel.Hand

end
-- ==== Proof.K1Body.lean ====
/- The second call's body obligation: at each grid point the body's run, in that point's case, carries the invariant
   to the next point and leaves each input block unchanged. -/
import proofs.«408594_j31722628448459_3_alg».proof.Proof.K1Data

noncomputable section

namespace Cert.Kernel.Hand

open Cert.Kernel Cert.Kernel.Gen
open Idealize.ShloMosaic Idealize.ShloMosaic.TcCoe
open Idealize.SL Idealize.SL.RA Idealize.SL.BI Idealize.SL.BI.BIBase Idealize.SL.Sem
open Idealize.ShloMosaic.Pipeline (Dat BodyObligation)

local notation "FF" => Bits
local notation "𝕄F" => MT nD τ sig Unit (Elt FF) ℕ (UR sig nD τ) ℕ

/-- Stores that tile a whole buffer leave their canonical reading, whatever it held before. -/
theorem writes_tiled {κ : Kind} (b : Ref sig κ) (g : b.ty.Contents (Elt FF)) (L : List (View.Piece (Elt FF) b.ty.shape b.ty.elt))
    (size : Fin b.ty.shape.rank → ℕ) (h : View.Piece.tiled L size = true) : (Memref.whole b).view.writes (Elt FF) g L = View.canon L :=
  View.read_writes_eq_canon (.whole b) g L (View.cover_of_tiled L size h)

section Region1

variable (V : (c : Dev nD) → (b : Ref sig .tc) → Buf (Elt FF) ((c : Thread nD τ).loc b))

/-- The tables held whole are the two tables' buffers at their contents. -/
theorem prefHeld_eq (c : Dev nD) :
    (Pipeline.prefHeld pre1 c (fun _ => fullShare) tblLit : sProp 𝕄F)
      = iprop(tbPt c tbM0 (tblLit 0) ∗ tbPt c tbM1 (tblLit 1)) := by
  unfold Pipeline.prefHeld
  rw [show (Finset.univ : Finset (Fin pre1.K)) = insert (0 : Fin 2) {(1 : Fin 2)} from by decide,
    bigSep_insert (by decide), bigSep_singleton]
  rfl

variable (t : Fin cfgL.N)

/-- The body leaves each input block as it found it, so before the body an input holds its block at every point. -/
theorem before1 (c : Dev nD) : ∀ w : Fin cfgL.W, w ≠ 4 → ∀ d, (dat1 V c).before w t d = iblk1 V c w t
  | ⟨0, _⟩, _, d | ⟨1, _⟩, _, d | ⟨2, _⟩, _, d | ⟨3, _⟩, _, d =>
    ((dat1 V c).before_in_eq_fetched _ rfl (fun _ => rfl) (fun _ _ _ => rfl) (fun _ => rfl) t d).trans rfl
  | ⟨4, _⟩, h, _ => absurd rfl h

/-- At a diagonal point the one store is the whole output tile. -/
theorem diag_leaves (hD : isDiag 0 t) {W : PcsOut (F := FF)} (ho : outAt V 0 t = View.canon W) (hW : View.Piece.tiled W S1x512x1024.size = true) :
    iprop(∃ f, (ms4 t).view.loc ((0 : Dev nD) : Thread nD τ) ↦[(ms4 t).view.set]{fullShare} (ms4 t).view.writes (Elt FF) f W) ⊢ (dat1 V 0).leavesExact 4 t := by
  rw [show (dat1 V 0).leavesExact 4 t = owns ((0 : Dev nD) : Thread nD τ) (ms4 t) fullShare (View.canon W) from by
    unfold Dat.leavesExact; rw [idle_iff, decide_eq_true hD, after1_4, ho]; rfl]
  unfold owns
  iintro ⟨%f, H⟩; iexists _; iframe
  ipureintro; exact View.read_writes_eq_canon _ _ _ (View.cover_of_tiled W _ hW)

/-- Off the diagonal the output tile's buffer is left as it was. -/
theorem idle_leaves (hD : ¬ isDiag 0 t) (d) : owns ((0 : Dev nD) : Thread nD τ) (ms4 t) fullShare ((dat1 V 0).before 4 t d) ⊢ (dat1 V 0).leavesExact 4 t := by
  have hi : cfgL.idle 4 (cfgL.grid.coords t) = true := by rw [idle_iff, decide_eq_false hD]; rfl
  rw [(dat1 V 0).leavesExact_idle 4 t hi (idle_noflush t hi)]
  iintro H; iexists d; iexact H

/-- A point's obligation from any run there whose scratch stores tile the three buffers and are the next point's statistics. -/
theorem sound_of_run (s : St) {W0 W1 : PcsCol (F := FF)} {W2 : PcsAcc (F := FF)} {A B C D P Q Q' T0 T1 R1 R2 R3 R4 R5 O : sProp 𝕄F}
    {prog : Prog (TpuEff nD τ sig (Elt FF) Λ₀ .tc) PUnit}
    (hrun : ∀ K, iprop(A ∗ B ∗ C ∗ D ∗ P ∗ T0 ∗ T1 ∗ scPt 0 scM0 s.1 ∗ scPt 0 scM1 s.2.1 ∗ scPt 0 scM2 s.2.2
        ∗ (iprop(A ∗ B ∗ C ∗ D ∗ Q ∗ T0 ∗ T1
            ∗ (∃ f, scM0.view.loc ((0 : Dev nD) : Thread nD τ) ↦{fullShare} scM0.view.writes (Elt FF) f W0)
            ∗ (∃ f, scM1.view.loc ((0 : Dev nD) : Thread nD τ) ↦{fullShare} scM1.view.writes (Elt FF) f W1)
            ∗ (∃ f, scM2.view.loc ((0 : Dev nD) : Thread nD τ) ↦{fullShare} scM2.view.writes (Elt FF) f W2)) -∗ K ⟨⟩))
      ⊢ wp frame (wpE (defs₀ (F := FF)) Variants.none (0 : Dev nD) none) Set.univ prog K)
    (hst : stAt V 0 (t.val + 1) = (View.canon W0, View.canon W1, View.canon W2))
    (h0 : View.Piece.tiled W0 ![512, 1] = true) (h1 : View.Piece.tiled W1 ![512, 1] = true) (h2 : View.Piece.tiled W2 ![512, 64] = true)
    (hQ : Q ⊢ Q') :
    iprop(T0 ∗ T1 ∗ R1 ∗ R2 ∗ R3 ∗ R4 ∗ R5 ∗ scPt 0 scM0 s.1 ∗ scPt 0 scM1 s.2.1 ∗ scPt 0 scM2 s.2.2 ∗ O ∗ A ∗ B ∗ C ∗ D ∗ P)
      ⊢ wp frame (wpE (defs₀ (F := FF)) Variants.none (0 : Dev nD) none) Set.univ prog fun _ =>
        iprop(((T0 ∗ T1) ∗ R1 ∗ R2 ∗ R3 ∗ R4 ∗ R5
            ∗ ∃ s' : St, ⌜t.succ.val ≠ 0 → s' = stAt V 0 t.succ.val⌝ ∗ scPt 0 scM0 s'.1 ∗ scPt 0 scM1 s'.2.1 ∗ scPt 0 scM2 s'.2.2)
          ∗ O ∗ A ∗ B ∗ C ∗ D ∗ Q') := by
  iintro ⟨HT0, HT1, Ha, Hb, Hc, Hd, He, HS0, HS1, HS2, Ho, H0, H1, H2, H3, H4⟩
  iapply (hrun _)
  iframe
  iintro ⟨H0, H1, H2, H3, H8, HT0, HT1, ⟨%g0, HS0⟩, ⟨%g1, HS1⟩, ⟨%g2, HS2⟩⟩
  ihave H8 := hQ $$ H8
  iframe
  iexists (_, _, _); iframe
  ipureintro; intro _
  exact (congr (congrArg _ (writes_tiled cc1_scratch0 g0 W0 _ h0)) (congr (congrArg _ (writes_tiled cc1_scratch1 g1 W1 _ h1)) (writes_tiled cc1_scratch2 g2 W2 _ h2))).trans hst.symm

theorem body_obligation1 (c : Dev nD) : BodyObligation (dat1 V c) (defs₀ (F := FF)) Variants.none () Set.univ := fun t => by
  rw [bigSep_W1, bigSep_W1]
  show iprop(PhiAt V c t.castSucc ∗ (dat1 V c).owesAt () t.castSucc
      ∗ (∃ d, owns (c : Thread nD τ) (ms0 t) fullShare ((dat1 V c).before 0 t d))
      ∗ (∃ d, owns (c : Thread nD τ) (ms1 t) fullShare ((dat1 V c).before 1 t d))
      ∗ (∃ d, owns (c : Thread nD τ) (ms2 t) fullShare ((dat1 V c).before 2 t d))
      ∗ (∃ d, owns (c : Thread nD τ) (ms3 t) fullShare ((dat1 V c).before 3 t d))
      ∗ (∃ d, owns (c : Thread nD τ) (ms4 t) fullShare ((dat1 V c).before 4 t d)))
    ⊢ wp frame (wpE (defs₀ (F := FF)) Variants.none c none) Set.univ (bodyAt1 t) fun _ =>
      iprop(PhiAt V c t.succ ∗ (dat1 V c).owesAt () t.castSucc
        ∗ owns (c : Thread nD τ) (ms0 t) fullShare (iblk1 V c 0 t) ∗ owns (c : Thread nD τ) (ms1 t) fullShare (iblk1 V c 1 t)
        ∗ owns (c : Thread nD τ) (ms2 t) fullShare (iblk1 V c 2 t) ∗ owns (c : Thread nD τ) (ms3 t) fullShare (iblk1 V c 3 t)
        ∗ (dat1 V c).leavesExact 4 t)
  obtain rfl := dev0 c
  simp (disch := decide) only [before1 V t 0]
  unfold PhiAt
  rw [prefHeld_eq]
  iintro ⟨⟨⟨HT0, HT1⟩, Ha, Hb, Hc, Hd, He, ⟨%s, %hs, HS0, HS1, HS2⟩⟩, Ho, ⟨%d0, H0⟩, ⟨%d1, H1⟩, ⟨%d2, H2⟩, ⟨%d3, H3⟩, ⟨%d4, H4⟩⟩
  by_cases hI : isInit 0 t <;> by_cases hD : isDiag 0 t
  · iapply (sound_of_run V t s ((runA V 0 t hI hD).2 s.1 s.2.1 s.2.2 Set.univ) (by rw [stAt_succ, stepSt, dif_pos hI, dif_pos hD]) rfl rfl rfl
      (diag_leaves V t hD (by rw [outAt, dif_pos hI, dif_pos hD]) rfl))
    iframe
    iexists _; iexact H4
  · iapply (sound_of_run V t s ((runB V 0 t hI hD).2 _ s.1 s.2.1 s.2.2 Set.univ) (by rw [stAt_succ, stepSt, dif_pos hI, dif_neg hD]) rfl rfl rfl
      (idle_leaves V t hD d4))
    iframe
  · obtain rfl : s = stAt V 0 t.val := hs fun h0 => hI (init_zero t h0)
    iapply (sound_of_run V t _ ((runD V 0 t (stAt V 0 t.val) hI hD).2 Set.univ) (by rw [stAt_succ, stepSt, dif_neg hI, dif_pos hD]) rfl rfl rfl
      (diag_leaves V t hD (by rw [outAt, dif_neg hI, dif_pos hD]) rfl))
    iframe
    iexists _; iexact H4
  · obtain rfl : s = stAt V 0 t.val := hs fun h0 => hI (init_zero t h0)
    iapply (sound_of_run V t _ ((runC V 0 t (stAt V 0 t.val) hI hD).2 _ Set.univ) (by rw [stAt_succ, stepSt, dif_neg hI, dif_neg hD]) rfl rfl rfl
      (idle_leaves V t hD d4))
    iframe

end Region1

end Cert.Kernel.Hand

end
-- ==== Proof.KRunA.lean ====
/- The program as four segments (host operations, the first call, host operations, the second call): what the program's
   buffers hold at each boundary, each call's proof data at its entry contents, and the first call as a segment. -/
import proofs.«408594_j31722628448459_3_alg».proof.Proof.K0
import proofs.«408594_j31722628448459_3_alg».proof.Proof.K1Body
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.BI Idealize.SL.BI.BIBase
open Idealize.ShloMosaic.Pipeline (Dat)

local notation "FF" => Bits
local notation "𝕄F" => MT nD τ sig Unit (Elt FF) ℕ (UR sig nD τ) ℕ

variable (m : (ℓ : Loc nD τ sig) → Buf (Elt FF) ℓ) (ρ : Dev nD → PrngReg)

abbrev W0 : Dev nD → Valuation τ sig (Elt FF) := fun c b => (s₀ m ρ).mem ((c : Dev nD), b)
abbrev W1 : Dev nD → Valuation τ sig (Elt FF) := fun c => StableHlo.after hostOps0 (W0 m ρ c)
abbrev V1 : (c : Dev nD) → (b : Ref sig .tc) → Buf (Elt FF) ((c : Thread nD τ).loc b) := fun c b => W1 m ρ c b
/-- The first call changes its own arrays only. -/
def W2 (c : Dev nD) : Valuation τ sig (Elt FF) :=
  Pipeline.withArrays spec0 c (W1 m ρ c) fun w => (dat0 (F := FF) (V1 m ρ) c).arrAt w cfg0.N
theorem W2_arr (c : Dev nD) (w : Fin cfg0.W) :
    W2 m ρ c (Proc.devRef .tc (Pipeline.arrRef spec0 w)) = (dat0 (F := FF) (V1 m ρ) c).arrAt w cfg0.N := by
  unfold W2; exact Pipeline.withArrays_arr spec0 winFacts0.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt FF) ((c : Thread nD τ).loc b) := fun c b => W2 m ρ c b
abbrev W3 : Dev nD → Valuation τ sig (Elt FF) := fun c => StableHlo.after hostOps1 (W2 m ρ c)
abbrev V3 : (c : Dev nD) → (b : Ref sig .tc) → Buf (Elt FF) ((c : Thread nD τ).loc b) := fun c b => W3 m ρ c b
/-- The second call changes the result only. -/
def W4 (c : Dev nD) : Valuation τ sig (Elt FF) :=
  Function.update (W3 m ρ c) (Proc.devRef .tc main_v5) ((dat1 (V3 m ρ) c).arrAt 4 cfgL.N)
abbrev V4 : (c : Dev nD) → (b : Ref sig .tc) → Buf (Elt FF) ((c : Thread nD τ).loc b) := fun c b => W4 m ρ c b

/-- Only the second call has tables. -/
abbrev adm : (p : Fin 2) → (pcfgs (F := FF) p).Adm := fun
  | ⟨0, _⟩ => (cfg0.toPCfg_adm : (cfg0.toPCfg (Val := Elt FF)).Adm)
  | ⟨1, _⟩ => admL
  | ⟨_ + 2, h⟩ => absurd h (Nat.not_lt.2 (Nat.le_add_left _ _))

def pdats : (p : Fin 2) → (c : Dev nD) → Dat τ (Elt FF) Unit ℕ (UR sig nD τ) ℕ (Pipeline.pin (pcfgs (F := FF)) adm p) c
  | ⟨0, _⟩ => fun c => dat0 (F := FF) (V1 m ρ) c
  | ⟨1, _⟩ => fun c => dat1 (V3 m ρ) c

abbrev 𝒱₀ : Variants := Variants.none
abbrev L : GSem nD τ sig → Finset Unit := fun _ => ∅
abbrev lv : GSem nD τ sig → Unit → ℕ := fun _ _ => 0
/-- Carried unchanged through every segment. -/
abbrev R (c : Dev nD) : sProp 𝕄F := iprop((∃ r, prngReg c r) ∗ ∃ W, owes (c : Thread nD τ) (0 : CellTallies nD τ sig Unit) W)

abbrev hseg (ops : List (HloOp τ sig (Elt FF))) (hsub : ops.Forall fun op => op.bufs ⊆ StableHlo.tcRefs τ sig)
    (hfresh : ops.Forall fun op => op.fresh = ∅) (W : Dev nD → Valuation τ sig (Elt FF)) :
    Pipeline.HostSeg (Name := ℕ) (U := UR sig nD τ) (pcfgs (F := FF)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
def reg0 : Pipeline.RegionSeg (pcfgs (F := FF)) adm (pdats m ρ) () defs₀ 𝒱₀ L lv 0 where
  win := winFacts0.to₀
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest spec0 c (V1 m ρ c)
  hentry c := by
    rw [Pipeline.ownSems0_none]
    have hsplit := Pipeline.arrays_of_unscopedBufs (p := 0) (pcfgs (F := FF)) adm (pdats m ρ) winFacts0 arr_whole0 c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    rw [show (pdats m ρ 0 c).Φ 0 = Pipeline.ΦA spec0 c from rfl]; unfold Pipeline.ΦA
    iintro ⟨Hp, -, Hr⟩
    iframe
  hout c := by
    rw [Pipeline.ownSems0_none, show (pdats m ρ 0 c).Φ (Fin.last _) = Pipeline.ΦA spec0 c from rfl]; unfold Pipeline.ΦA
    iintro ⟨Hr, Hp⟩
    iframe; iempintro
  hexit c := by
    have hjoin := Pipeline.unscopedBufs_of_arrays (p := 0) (pcfgs (F := FF)) adm winFacts0 arr_whole0 c (pdats m ρ) ((pdats m ρ 0 c).share_full fun _ => rfl)
      (V1 m ρ c) (V2 m ρ c) ((pdats m ρ 0 c).arrAt · cfg0.N) (fun w => (W2_arr m ρ c w).symm)
      fun b hb => W2_of_ne m ρ c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunB.lean ====
/- The second call as a segment, then the whole run: it terminates without fault on every weakly fair schedule and leaves
   each of the program's buffers at its contents after the last segment. -/
import proofs.«408594_j31722628448459_3_alg».proof.Proof.KRunA
import proofs.«408594_j31722628448459_3_alg».proof.Proof.Gen.Kernel.Regions

noncomputable section

namespace Cert.Kernel.Hand

open Cert.Kernel Cert.Kernel.Gen
open Idealize.ShloMosaic Idealize.ShloMosaic.TcCoe Idealize.ShloMosaic.Tactic Idealize.ShloMosaic.Rounds
open Idealize.SL Idealize.SL.RA Idealize.SL.BI Idealize.SL.BI.BIBase
open Idealize.ShloMosaic.Pipeline (Dat)

local notation "FF" => Bits
local notation "𝕄F" => MT nD τ sig Unit (Elt FF) ℕ (UR sig nD τ) ℕ

variable (m : (ℓ : Loc nD τ sig) → Buf (Elt FF) ℓ) (ρ : Dev nD → PrngReg)

theorem sep_eq (P Q : sProp 𝕄F) : BI.sep P Q = iprop(P ∗ Q) := rfl

theorem unscopedBufs_list (c : Dev nD) (V : (b : Ref sig .tc) → Buf (Elt FF) ((c : Thread nD τ).loc b)) :
    (unscopedBufs c V : sProp 𝕄F) = bigSepL [main_arg0, main_arg1, main_arg2, main_arg3, main_v0, main_v1, main_v2, main_v3, main_v4, main_v5, main_c, main_c_0]
      fun b => ((c : Thread nD τ).loc b) ↦{fullShare} V b := by
  unfold unscopedBufs
  exact bigSep_eq_bigSepL_of_eq _ (by decide) (by decide) _

/-- A buffer that neither the first call nor the host operations after it write enters both calls with the same contents. -/
theorem V3_eq_V1 (c : Dev nD) (b : Ref sig .tc) (h3 : b ∉ hostOps1_W := by decide) (h2 : ∀ w, Pipeline.arrRef spec0 w ≠ b := by decide) :
    V3 m ρ c b = V1 m ρ c b :=
  (StableHlo.after_of_writes_sub hostOps1 _ hostOps1_writes h3).trans (W2_of_ne m ρ c b h2)

/-- The second call finds the two tables at the constants the first host stretch wrote. -/
theorem V3_tbl (c : Dev nD) : V3 m ρ c main_c = (tblLit 0 : Buf (Elt FF) ((c : Thread nD τ).loc main_c))
    ∧ V3 m ρ c main_c_0 = (tblLit 1 : Buf (Elt FF) ((c : Thread nD τ).loc main_c_0)) := by
  constructor <;> refine (V3_eq_V1 m ρ c _).trans ?_ <;> show StableHlo.after hostOps0 (W0 m ρ c) _ = _ <;> after_results <;> rfl

theorem arrays1_eq (V : (c : Dev nD) → (b : Ref sig .tc) → Buf (Elt FF) ((c : Thread nD τ).loc b)) (c : Dev nD)
    (G : (w : Fin cfgL.W) → Buf (Elt FF) ((cfgL.win w).arr.view.loc (c : Thread nD τ))) :
    (dat1 V c).arrays G = bigSep Finset.univ fun w : Fin cfgL.W =>
      (((c : Thread nD τ).loc (Pipeline.arrRef spec1 w)) ↦{(dat1 V c).share w} G w : sProp 𝕄F) := by
  unfold Dat.arrays
  exact bigSep_congr fun w _ => by rw [(arr_whole1 w).set_eq_univ]

theorem V4_of_ne (c : Dev nD) (b : Ref sig .tc) (h : b ≠ main_v5) : V4 m ρ c b = V3 m ρ c b :=
  Function.update_of_ne (StableHlo.devRef_ne_of_ne h) _ _
theorem V4_main_v5 (c : Dev nD) : V4 m ρ c main_v5 = (dat1 (V3 m ρ) c).arrAt 4 cfgL.N :=
  Function.update_self _ _ _

abbrev Tₙ (c : Dev nD) : sProp 𝕄F := iprop(StableHlo.held (c : Thread nD τ) (Pipeline.ucRefs τ sig) (W4 m ρ c) ∗ ∃ r, prngReg c r)

set_option backward.isDefEq.respectTransparency.types false in
def reg1 : Pipeline.RegionSeg (pcfgs (F := FF)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(emp)
  Y c := Pipeline.prefHeld pre1 c (fun _ => fullShare) tblLit
  Z c := iprop((∃ r, prngReg c r) ∗ Pipeline.unscopedRestP pre1 spec1 c (V3 m ρ c))
  hentry c := by
    rw [Pipeline.ownSems0_none,
      show StableHlo.held (c : Thread nD τ) (Pipeline.ucRefs τ sig) (W3 m ρ c) = unscopedBufs c (V3 m ρ c) from (Pipeline.unscopedBufs_held c _).symm,
      unscopedBufs_list]
    simp only [bigSepL_cons_cons, bigSepL_singleton, sep_eq]
    rw [unscopedRestP1_eq, (V3_tbl m ρ c).1, (V3_tbl m ρ c).2,
      show (pdats m ρ 1 c).arrays ((pdats m ρ 1 c).arrAt · 0) = (dat1 (V3 m ρ) c).arrays ((dat1 (V3 m ρ) c).arrAt · 0) from rfl,
      arrays1_eq, bigSep_W1,
      show (Pipeline.prefHeld (pcfgs (F := FF) 1).pre c (fun _ => fullShare) tblLit : sProp 𝕄F) = _ from prefHeld_eq c]
    iintro ⟨⟨⟨Ha0, Ha1, Ha2, Ha3, Hv0, Hv1, Hv2, Hv3, Hv4, Hv5, Hc0, Hc1⟩, Hp, HO⟩, -, -⟩
    ihave H2 := (pointsTo_share (PosShare.mem_left_op_right fullShare)).1 $$ Hv2
    icases H2 with ⟨Hv2l, Hv2r⟩
    imodintro
    isplitl [Hv2l Hv2r Hv3 Hv4 Hv5]
    · isplitl [Hv2l]; · iexact Hv2l
      isplitl [Hv2r]; · iexact Hv2r
      isplitl [Hv3]; · iexact Hv3
      isplitl [Hv4]; · iexact Hv4
      iexact Hv5
    iframe Hc0 Hc1 Hp Ha0 Ha1 Ha2 Ha3 Hv0 Hv1
    unfold Pipeline.Dat.owesAt Pipeline.owesWithin
    icases HO with ⟨%W, HO⟩; iexists W; isplitr; · ipureintro; exact fun _ _ => Or.inl trivial
    iexact HO
  hin c := by
    rw [show (pdats m ρ 1 c).Φ 0 = PhiAt (V3 m ρ) c 0 from rfl,
      show (Pipeline.scopedRest (Pipeline.pin (pcfgs (F := FF)) adm 1).spec c : sProp 𝕄F) = _ from scopedRest1_eq c]; unfold PhiAt
    iintro ⟨-, HT, Ha, Hb, Hc, Hd, He, ⟨%f0, HS0⟩, ⟨%f1, HS1⟩, ⟨%f2, HS2⟩⟩
    iframe HT Ha Hb Hc Hd He
    iexists (f0, f1, f2); isplitr
    · ipureintro; intro h; exact absurd rfl h
    iframe
  hout c := by
    rw [Pipeline.ownSems0_none, show (pdats m ρ 1 c).Φ (Fin.last _) = PhiAt (V3 m ρ) c (Fin.last _) from rfl,
      show (Pipeline.scopedRest (Pipeline.pin (pcfgs (F := FF)) adm 1).spec c : sProp 𝕄F) = _ from scopedRest1_eq c]; unfold PhiAt
    iintro ⟨HT, Ha, Hb, Hc, Hd, He, ⟨%s, -, HS0, HS1, HS2⟩⟩
    iframe HT Ha Hb Hc Hd He
    isplitr; · iempintro
    isplitl [HS0]; · iexists _; iexact HS0
    isplitl [HS1]; · iexists _; iexact HS1
    iexists _; iexact HS2
  hexit c := by
    dsimp only [Tₙ]
    rw [show StableHlo.held (c : Thread nD τ) (Pipeline.ucRefs τ sig) (W4 m ρ c) = unscopedBufs c (V4 m ρ c) from (Pipeline.unscopedBufs_held c _).symm,
      unscopedBufs_list, unscopedRestP1_eq]
    simp (disch := decide) only [bigSepL_cons_cons, bigSepL_singleton, sep_eq, V4_of_ne m ρ c, V4_main_v5]
    rw [(V3_tbl m ρ c).1, (V3_tbl m ρ c).2,
      show (pdats m ρ 1 c).arrays ((pdats m ρ 1 c).arrAt · (Pipeline.pin (pcfgs (F := FF)) adm 1).N) = (dat1 (V3 m ρ) c).arrays ((dat1 (V3 m ρ) c).arrAt · cfgL.N) from rfl,
      arrays1_eq, bigSep_W1, prefHeld_eq,
      (dat1 (V3 m ρ) c).arrAt_in 0 rfl, (dat1 (V3 m ρ) c).arrAt_in 1 rfl, (dat1 (V3 m ρ) c).arrAt_in 2 rfl, (dat1 (V3 m ρ) c).arrAt_in 3 rfl]
    iintro ⟨⟨Hv2l, Hv2r, Hv3, Hv4, Hv5⟩, HO, ⟨Hc0, Hc1⟩, ⟨Hp, Ha0, Ha1, Ha2, Ha3, Hv0, Hv1⟩⟩
    ihave Hv2 := (pointsTo_share (PosShare.mem_left_op_right fullShare)).2 $$ [Hv2l Hv2r]
    · isplitl [Hv2l]; · iexact Hv2l
      iexact Hv2r
    imodintro
    iframe Hc0 Hc1 Hp Ha0 Ha1 Ha2 Ha3 Hv0 Hv1
    isplitr [HO]
    · isplitl [Hv2]; · iexact Hv2
      isplitl [Hv3]; · iexact Hv3
      isplitl [Hv4]; · iexact Hv4
      iexact Hv5
    unfold Pipeline.Dat.owesAt Pipeline.owesWithin
    icases HO with ⟨%W, -, HO⟩; iexists W; iexact HO

abbrev segs : List (Pipeline.Seg (pcfgs (F := FF)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]

theorem main_run (c : Dev nD) : main (F := FF) c = Pipeline.Seg.run (segs m ρ) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
theorem run_main : θ_run defs (onTc (τ := τ) (main (F := FF))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := FF)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells (Pipeline.pin (pcfgs (F := FF)) adm) (cellOf_inj adm)) (Pipeline.launchToks (Pipeline.pin (pcfgs (F := FF)) adm) (cellOf_inj adm)))
    (hu₀ := by rw [ownU_emb₁, BI.bigSep_emp_const]; iintro Hu; imodintro; iframe; iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.KFrame.lean ====
/- The run read at its end: the result holds the second call's output array, and each argument, which no host operation
   and no call writes, holds what it held at launch. -/
import proofs.«408594_j31722628448459_3_alg».proof.Proof.KRunB

noncomputable section

namespace Cert.Kernel.Hand

open Cert.Kernel Cert.Kernel.Gen
open Idealize.ShloMosaic Idealize.ShloMosaic.TcCoe

local notation "FF" => Bits

variable (m : (ℓ : Loc nD τ sig) → Buf (Elt FF) ℓ) (ρ : Dev nD → PrngReg)

/-- A buffer other than the result that neither host stretch writes and the first call leaves as entered ends as launched. -/
theorem W4_keep (c : Dev nD) (b : Ref sig .tc) (h2 : W2 m ρ c (Proc.devRef .tc b) = W1 m ρ c (Proc.devRef .tc b))
    (h4 : b ≠ main_v5 := by decide) (h3 : b ∉ hostOps1_W := by decide) (h1 : b ∉ hostOps0_W := by decide) :
    W4 m ρ c (Proc.devRef .tc b) = m ((c : Thread nD τ).loc b) :=
  (V4_of_ne m ρ c b h4).trans <| (StableHlo.after_of_writes_sub hostOps1 _ hostOps1_writes h3).trans <| h2.trans <|
    (StableHlo.after_of_writes_sub hostOps0 _ hostOps0_writes h1).trans rfl

theorem run_result : θ_run defs (onTc (τ := τ) (main (F := FF))) ⟨m, fun _ => 0, ρ⟩ (fun r => ∀ c : Dev nD,
      r.2.mem ((c.tc : Thread nD τ).loc main_v5) = (dat1 (V3 m ρ) c).arrAt 4 cfgL.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v5 (by decide))).trans (V4_main_v5 m ρ c),
     (h c _ (mem_uc main_arg0 (by decide))).trans (W4_keep m ρ c main_arg0 (W2_of_ne m ρ c _ (by decide))),
     (h c _ (mem_uc main_arg1 (by decide))).trans (W4_keep m ρ c main_arg1
       ((W2_arr m ρ c 1).trans ((dat0 (F := FF) (V1 m ρ) c).arrAt_in 1 rfl _))),
     (h c _ (mem_uc main_arg2 (by decide))).trans (W4_keep m ρ c main_arg2 (W2_of_ne m ρ c _ (by decide))),
     (h c _ (mem_uc main_arg3 (by decide))).trans (W4_keep m ρ c main_arg3 (W2_of_ne m ρ c _ (by decide)))⟩) (run_main m ρ)

theorem frame : θ_run defs (onTc (τ := τ) (main (F := FF))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ)

end Cert.Kernel.Hand

end
-- ==== Proof.KI0.lean ====
/- The first call's body at one grid point: it reads its two input blocks whole and stores, over the whole output block,
   the first block's product with the second's transpose. From that: the call's proof data and its body obligation. -/
import proofs.«408594_j31722628448459_3_alg».proof.Proof.Gen.KernelIdeal.Launch
import proofs.«408594_j31722628448459_3_alg».proof.Proof.Gen.KernelIdeal.Skeleton
import proofs.«408594_j31722628448459_3_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.Sem
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Block t of window w's array under V. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rOut0 : Rect S512x1024 := Rect.unit (s := S512x1024) ![0, 0] S512x1024.size inb_S512x1024_S512x1024_0_0
abbrev rW0 : Rect S1024x1024 := Rect.unit (s := S1024x1024) ![0, 0] S1024x1024.size inb_S1024x1024_S1024x1024_0_0

/-- The output block as a function of the two input blocks. -/
def out0 (x0 : Vec F S512x1024 .f32) (x1 : Vec F S1024x1024 .f32) : Vec F S512x1024 .bf16 :=
  View.canon [⟨rOut0, k0_pay1 (View.ld x0 rOut0) (View.ld x1 rW0)⟩]

/-- The one store covers the whole output block, so what it leaves does not depend on what was there. -/
theorem sound_kernel0 (c : Dev nD) (E : Set ℕ) (i : grid0.Coords) (arg1 : Memref sig .tc .vmem S512x1024 .f32) (harg1 : arg1.IsWhole)
    (arg2 : Memref sig .tc .vmem S1024x1024 .f32) (harg2 : arg2.IsWhole) (arg3 : Memref sig .tc .vmem S512x1024 .bf16) (harg3 : arg3.IsWhole)
    (x0 : Vec F S512x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0 x0 x1)) -∗ K ⟨⟩))
      ⊢ wp frame (wpE (defs₀ (F := F)) Variants.none c none) E (cc0__linear_bf16_kernel i arg1 harg1 arg2 harg2 arg3 harg3) K := by
  simp only [cc0__linear_bf16_kernel_eq_skeleton]; unfold cc0__linear_bf16_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S512x1024.size (by rfl))

/-- After the body each input block is unchanged and the output block is out0 of the two. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

/-- The body leaves each input block as it found it, so before the body an input holds its block at every point. -/
theorem before0_in (c : Dev nD) (t : Fin cfg0.N) :
    (∀ d, (dat0 V c).before 0 t d = iblk0 V c 0 t) ∧ ∀ d, (dat0 V c).before 1 t d = iblk0 V c 1 t := by
  constructor <;> exact fun d => (dat0 V c).before_in_eq_fetched _ rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) fun _ =>
      iprop((dat0 V c).Φ t.castSucc ∗ (dat0 V c).owesAt () t.castSucc
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t))
  unfold bodyAt0
  simp only [(before0_in V c t).1, (before0_in V c t).2, after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe

end Cert.KernelIdeal.Hand

end
-- ==== Proof.KI1Defs.lean ====
/- Names for the attention body's two index tables and three scratch buffers, the two table words read at a grid point,
   the three conditions computed from them, and the types of the store lists a run leaves. -/
import proofs.«408594_j31722628448459_3_alg».proof.Proof.Gen.KernelIdeal.Launch
import proofs.«408594_j31722628448459_3_alg».proof.Proof.Gen.KernelIdeal.Skeleton
import proofs.«408594_j31722628448459_3_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI

variable {F : FTy → Type} [FloatOps F] [Named F]

local notation "𝕄" => MT nD τ sig Unit (Elt F) ℕ (UR sig nD τ) ℕ

abbrev tbM0 : Memref sig .tc .smem S10 .i32 := Memref.whole main_c
abbrev tbM1 : Memref sig .tc .smem S10 .i32 := Memref.whole main_c_0
abbrev scM0 : Memref sig .tc .vmem S512x16 .f32 := Memref.whole cc1_scratch0
abbrev scM1 : Memref sig .tc .vmem S512x16 .f32 := Memref.whole cc1_scratch1
abbrev scM2 : Memref sig .tc .vmem S512x1024 .f32 := Memref.whole cc1_scratch2
abbrev BufOf (c : Dev nD) {sp : Space} {S : Shape} {e : EltTy} (M : Memref sig .tc sp S e) : Type := Buf (Elt F) (M.view.loc (c : Thread nD τ))
abbrev tbPt (c : Dev nD) {S : Shape} {e : EltTy} (M : Memref sig .tc .smem S e) (f : BufOf (F := F) c M) : sProp 𝕄 :=
  M.view.loc (c : Thread nD τ) ↦{fullShare} f
abbrev scPt (c : Dev nD) {S : Shape} {e : EltTy} (M : Memref sig .tc .vmem S e) (f : BufOf (F := F) c M) : sProp 𝕄 :=
  M.view.loc (c : Thread nD τ) ↦{fullShare} f
abbrev wd0 (c : Dev nD) (i : grid1.Coords) (xt0 : BufOf (F := F) c tbM0) : BitVec 32 :=
  tbM0.view.readAt (Elt F) (Rect.unit (s := S10) (k1_off1 i) S1.size (k1_off1_inb i)).toLoadRect xt0 (Shape.Idx.first (numel1_S1.symm ▸ Nat.one_pos))
abbrev wd1 (c : Dev nD) (i : grid1.Coords) (xt1 : BufOf (F := F) c tbM1) : BitVec 32 :=
  tbM1.view.readAt (Elt F) (Rect.unit (s := S10) (k1_off1 i) S1.size (k1_off1_inb i)).toLoadRect xt1 (Shape.Idx.first (numel1_S1.symm ▸ Nat.one_pos))
abbrev cInit (w1 : BitVec 32) : Prop := Scalar.cmpi .ne (Scalar.extui (Scalar.cmpi .eq w1 0#32) : BitVec 32) 0#32 = 1#1
abbrev cOff (w0 w1 : BitVec 32) : Prop := Scalar.cmpi .ne (Scalar.extui (Scalar.xori (Scalar.cmpi .eq w1 w0) 1#1) : BitVec 32) 0#32 = 1#1
abbrev cDiag (w0 w1 : BitVec 32) : Prop := k1_cond3 w0 w1 = 1#1
abbrev PcsOut : Type := List (View.Piece (Elt F) S1x512x1024 .f32)
abbrev PcsCol : Type := List (View.Piece (Elt F) S512x16 .f32)
abbrev PcsAcc : Type := List (View.Piece (Elt F) S512x1024 .f32)

end Cert.KernelIdeal.Hand

end
-- ==== Proof.KI1Run.lean ====
/- The attention body run at one grid point, in the four cases its three conditions allow (key tile 0 or later; the query's own tile or not):
   the stores it leaves in the scratch buffers, and in the output block where that is written, as lists the run itself finds. -/
import proofs.«408594_j31722628448459_3_alg».proof.Proof.KI1Defs

set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F] [Named F]

local notation "𝕄" => MT nD τ sig Unit (Elt F) ℕ (UR sig nD τ) ℕ

/-- A whole block is owned at `x` exactly when it holds the raw contents that read `x`. -/
theorem owns_unread (c : Dev nD) {sp : Space} {S : Shape} {e : EltTy} {M : Memref sig (c : Thread nD τ).2.kind sp S e} (h : Memref.IsWhole (κ := .tc) M)
    (x : Vec F S e) : (owns (c : Thread nD τ) M fullShare x : sProp 𝕄) = (M.view.loc c ↦[M.view.set]{fullShare} h.unread x) := by
  refine BI.Entails.antisymm (?_ : owns (c : Thread nD τ) M fullShare x ⊢ _) (?_ : _ ⊢ owns (c : Thread nD τ) M fullShare x) <;> unfold owns
  · iintro ⟨%f, %hf, H⟩; obtain rfl := h.eq_unread hf; iexact H
  · iintro H; iexists _; isplitr; · ipureintro; exact h.read_unread x
    iexact H

variable (c : Dev nD) (i : grid1.Coords)
  (arg4 : Memref sig .tc .vmem S1x512x1024 .bf16) (harg4 : arg4.IsWhole) (arg5 : Memref sig .tc .vmem S1x512x1024 .bf16) (harg5 : arg5.IsWhole)
  (arg6 : Memref sig .tc .vmem S1024x1024 .bf16) (harg6 : arg6.IsWhole) (arg7 : Memref sig .tc .vmem S1x1024 .f32) (harg7 : arg7.IsWhole)
  (arg8 : Memref sig .tc .vmem S1x512x1024 .f32) (harg8 : arg8.IsWhole)
  (x4 x5 : Vec F S1x512x1024 .bf16) (x6 : Vec F S1024x1024 .bf16) (x7 : Vec F S1x1024 .f32)
  (xt0 : BufOf (F := F) c tbM0) (xt1 : BufOf (F := F) c tbM1)

/-- Key tile 0, the query's own: the statistics are reset, the masked update made, then the result normalised, projected and stored. -/
def kernelRun1_A (h7 : cInit (wd1 c i xt1)) (h14 : ¬ cOff (wd0 c i xt0) (wd1 c i xt1)) (h3 : cDiag (wd0 c i xt0) (wd1 c i xt1)) :
    { W : PcsOut × PcsCol × PcsCol × PcsAcc // ∀ (s0 : BufOf c scM0) (s1 : BufOf c scM1) (s2 : BufOf c scM2) (E : Set ℕ) (K : PUnit → sProp 𝕄),
      iprop(owns c arg4 fullShare x4 ∗ owns c arg5 fullShare x5 ∗ owns c arg6 fullShare x6 ∗ owns c arg7 fullShare x7 ∗ (∃ d, owns c arg8 fullShare d)
          ∗ tbPt c tbM0 xt0 ∗ tbPt c tbM1 xt1 ∗ scPt c scM0 s0 ∗ scPt c scM1 s1 ∗ scPt c scM2 s2
          ∗ (iprop(owns c arg4 fullShare x4 ∗ owns c arg5 fullShare x5 ∗ owns c arg6 fullShare x6 ∗ owns c arg7 fullShare x7 ∗ (∃ f, arg8.view.loc c ↦[arg8.view.set]{fullShare} arg8.view.writes (Elt F) f W.1)
              ∗ tbPt c tbM0 xt0 ∗ tbPt c tbM1 xt1
              ∗ (∃ f, scM0.view.loc c ↦{fullShare} scM0.view.writes (Elt F) f W.2.1)
              ∗ (∃ f, scM1.view.loc c ↦{fullShare} scM1.view.writes (Elt F) f W.2.2.1)
              ∗ (∃ f, scM2.view.loc c ↦{fullShare} scM2.view.writes (Elt F) f W.2.2.2)) -∗ K ⟨⟩))
        ⊢ wp frame (wpE defs₀ .none c none) E
        (cc1__attn_wo_kernel i tbM0 (Memref.isWhole_whole _) tbM1 (Memref.isWhole_whole _) arg4 harg4 arg5 harg5 arg6 harg6 arg7 harg7 arg8 harg8
          scM0 (Memref.isWhole_whole _) scM1 (Memref.isWhole_whole _) scM2 (Memref.isWhole_whole _)) K } := by
  refine ⟨⟨?_, ?_, ?_, ?_⟩, fun s0 s1 s2 E K => ?run⟩
  case run =>
    simp only [cc1__attn_wo_kernel_eq_skeleton]; unfold cc1__attn_wo_kernel_skel
    rw [owns_unread c harg4, owns_unread c harg5, owns_unread c harg6, owns_unread c harg7]; unfold owns
    iintro ⟨H4, H5, H6, H7, ⟨%d8, %f8, -, H8⟩, HT0, HT1, HS0, HS1, HS2, Hk⟩
    sl_exec (disch := first | sl_exact h7 | sl_exact h14 | sl_exact h3)
    sl_step
    iapply Hk
    iframe
    isplitl [H8]; · iexists _; iexact H8
    isplitl [HS0]; · iexists _; iexact HS0
    isplitl [HS1]; · iexists _; iexact HS1
    iexists _; iexact HS2

/-- Key tile 0, not the query's own: the statistics are reset and the unmasked update made; the output block is kept. -/
def kernelRun1_B (h7 : cInit (wd1 c i xt1)) (h14 : cOff (wd0 c i xt0) (wd1 c i xt1)) (h3 : ¬ cDiag (wd0 c i xt0) (wd1 c i xt1)) :
    { W : PcsCol × PcsCol × PcsAcc // ∀ (d8 : Vec F S1x512x1024 .f32) (s0 : BufOf c scM0) (s1 : BufOf c scM1) (s2 : BufOf c scM2) (E : Set ℕ) (K : PUnit → sProp 𝕄),
      iprop(owns c arg4 fullShare x4 ∗ owns c arg5 fullShare x5 ∗ owns c arg6 fullShare x6 ∗ owns c arg7 fullShare x7 ∗ owns c arg8 fullShare d8
          ∗ tbPt c tbM0 xt0 ∗ tbPt c tbM1 xt1 ∗ scPt c scM0 s0 ∗ scPt c scM1 s1 ∗ scPt c scM2 s2
          ∗ (iprop(owns c arg4 fullShare x4 ∗ owns c arg5 fullShare x5 ∗ owns c arg6 fullShare x6 ∗ owns c arg7 fullShare x7 ∗ owns c arg8 fullShare d8
              ∗ tbPt c tbM0 xt0 ∗ tbPt c tbM1 xt1
              ∗ (∃ f, scM0.view.loc c ↦{fullShare} scM0.view.writes (Elt F) f W.1)
              ∗ (∃ f, scM1.view.loc c ↦{fullShare} scM1.view.writes (Elt F) f W.2.1)
              ∗ (∃ f, scM2.view.loc c ↦{fullShare} scM2.view.writes (Elt F) f W.2.2)) -∗ K ⟨⟩))
        ⊢ wp frame (wpE defs₀ .none c none) E
        (cc1__attn_wo_kernel i tbM0 (Memref.isWhole_whole _) tbM1 (Memref.isWhole_whole _) arg4 harg4 arg5 harg5 arg6 harg6 arg7 harg7 arg8 harg8
          scM0 (Memref.isWhole_whole _) scM1 (Memref.isWhole_whole _) scM2 (Memref.isWhole_whole _)) K } := by
  refine ⟨⟨?_, ?_, ?_⟩, fun d8 s0 s1 s2 E K => ?run⟩
  case run =>
    simp only [cc1__attn_wo_kernel_eq_skeleton]; unfold cc1__attn_wo_kernel_skel
    rw [owns_unread c harg4, owns_unread c harg5, owns_unread c harg6, owns_unread c harg7, owns_unread c harg8]
    iintro ⟨H4, H5, H6, H7, H8, HT0, HT1, HS0, HS1, HS2, Hk⟩
    sl_exec (disch := first | sl_exact h7 | sl_exact h14 | sl_exact h3)
    sl_step
    iapply Hk
    iframe
    isplitl [HS0]; · iexists _; iexact HS0
    isplitl [HS1]; · iexists _; iexact HS1
    iexists _; iexact HS2

/-- A later key tile, not the query's own: the unmasked update of the statistics found; the output block is kept. -/
def kernelRun1_C (s0 : BufOf c scM0) (s1 : BufOf c scM1) (s2 : BufOf c scM2)
    (h7 : ¬ cInit (wd1 c i xt1)) (h14 : cOff (wd0 c i xt0) (wd1 c i xt1)) (h3 : ¬ cDiag (wd0 c i xt0) (wd1 c i xt1)) :
    { W : PcsCol × PcsCol × PcsAcc // ∀ (d8 : Vec F S1x512x1024 .f32) (E : Set ℕ) (K : PUnit → sProp 𝕄),
      iprop(owns c arg4 fullShare x4 ∗ owns c arg5 fullShare x5 ∗ owns c arg6 fullShare x6 ∗ owns c arg7 fullShare x7 ∗ owns c arg8 fullShare d8
          ∗ tbPt c tbM0 xt0 ∗ tbPt c tbM1 xt1 ∗ scPt c scM0 s0 ∗ scPt c scM1 s1 ∗ scPt c scM2 s2
          ∗ (iprop(owns c arg4 fullShare x4 ∗ owns c arg5 fullShare x5 ∗ owns c arg6 fullShare x6 ∗ owns c arg7 fullShare x7 ∗ owns c arg8 fullShare d8
              ∗ tbPt c tbM0 xt0 ∗ tbPt c tbM1 xt1
              ∗ (∃ f, scM0.view.loc c ↦{fullShare} scM0.view.writes (Elt F) f W.1)
              ∗ (∃ f, scM1.view.loc c ↦{fullShare} scM1.view.writes (Elt F) f W.2.1)
              ∗ (∃ f, scM2.view.loc c ↦{fullShare} scM2.view.writes (Elt F) f W.2.2)) -∗ K ⟨⟩))
        ⊢ wp frame (wpE defs₀ .none c none) E
        (cc1__attn_wo_kernel i tbM0 (Memref.isWhole_whole _) tbM1 (Memref.isWhole_whole _) arg4 harg4 arg5 harg5 arg6 harg6 arg7 harg7 arg8 harg8
          scM0 (Memref.isWhole_whole _) scM1 (Memref.isWhole_whole _) scM2 (Memref.isWhole_whole _)) K } := by
  refine ⟨⟨?_, ?_, ?_⟩, fun d8 E K => ?run⟩
  case run =>
    simp only [cc1__attn_wo_kernel_eq_skeleton]; unfold cc1__attn_wo_kernel_skel
    rw [owns_unread c harg4, owns_unread c harg5, owns_unread c harg6, owns_unread c harg7, owns_unread c harg8]
    iintro ⟨H4, H5, H6, H7, H8, HT0, HT1, HS0, HS1, HS2, Hk⟩
    sl_exec (disch := first | sl_exact h7 | sl_exact h14 | sl_exact h3)
    sl_step
    iapply Hk
    iframe
    isplitl [HS0]; · iexists _; iexact HS0
    isplitl [HS1]; · iexists _; iexact HS1
    iexists _; iexact HS2

/-- A later key tile, the query's own: the masked update of the statistics found, then the result normalised, projected and stored. -/
def kernelRun1_D (s0 : BufOf c scM0) (s1 : BufOf c scM1) (s2 : BufOf c scM2)
    (h7 : ¬ cInit (wd1 c i xt1)) (h14 : ¬ cOff (wd0 c i xt0) (wd1 c i xt1)) (h3 : cDiag (wd0 c i xt0) (wd1 c i xt1)) :
    { W : PcsOut × PcsCol × PcsCol × PcsAcc // ∀ (E : Set ℕ) (K : PUnit → sProp 𝕄),
      iprop(owns c arg4 fullShare x4 ∗ owns c arg5 fullShare x5 ∗ owns c arg6 fullShare x6 ∗ owns c arg7 fullShare x7 ∗ (∃ d, owns c arg8 fullShare d)
          ∗ tbPt c tbM0 xt0 ∗ tbPt c tbM1 xt1 ∗ scPt c scM0 s0 ∗ scPt c scM1 s1 ∗ scPt c scM2 s2
          ∗ (iprop(owns c arg4 fullShare x4 ∗ owns c arg5 fullShare x5 ∗ owns c arg6 fullShare x6 ∗ owns c arg7 fullShare x7 ∗ (∃ f, arg8.view.loc c ↦[arg8.view.set]{fullShare} arg8.view.writes (Elt F) f W.1)
              ∗ tbPt c tbM0 xt0 ∗ tbPt c tbM1 xt1
              ∗ (∃ f, scM0.view.loc c ↦{fullShare} scM0.view.writes (Elt F) f W.2.1)
              ∗ (∃ f, scM1.view.loc c ↦{fullShare} scM1.view.writes (Elt F) f W.2.2.1)
              ∗ (∃ f, scM2.view.loc c ↦{fullShare} scM2.view.writes (Elt F) f W.2.2.2)) -∗ K ⟨⟩))
        ⊢ wp frame (wpE defs₀ .none c none) E
        (cc1__attn_wo_kernel i tbM0 (Memref.isWhole_whole _) tbM1 (Memref.isWhole_whole _) arg4 harg4 arg5 harg5 arg6 harg6 arg7 harg7 arg8 harg8
          scM0 (Memref.isWhole_whole _) scM1 (Memref.isWhole_whole _) scM2 (Memref.isWhole_whole _)) K } := by
  refine ⟨⟨?_, ?_, ?_, ?_⟩, fun E K => ?run⟩
  case run =>
    simp only [cc1__attn_wo_kernel_eq_skeleton]; unfold cc1__attn_wo_kernel_skel
    rw [owns_unread c harg4, owns_unread c harg5, owns_unread c harg6, owns_unread c harg7]; unfold owns
    iintro ⟨H4, H5, H6, H7, ⟨%d8, %f8, -, H8⟩, HT0, HT1, HS0, HS1, HS2, Hk⟩
    sl_exec (disch := first | sl_exact h7 | sl_exact h14 | sl_exact h3)
    sl_step
    iapply Hk
    iframe
    isplitl [H8]; · iexists _; iexact H8
    isplitl [HS0]; · iexists _; iexact HS0
    isplitl [HS1]; · iexists _; iexact HS1
    iexists _; iexact HS2

end Cert.KernelIdeal.Hand

end
-- ==== Proof.KI1Data.lean ====
/- The second call's grid at the tables the host constants hold, the scratch statistics point by point (by recursion
   through the body's run in each point's case), and the proof data: the output tile is stored at a row's diagonal point only. -/
import proofs.«408594_j31722628448459_3_alg».proof.Proof.KI1Run

noncomputable section

namespace Cert.KernelIdeal.Hand

open Cert.KernelIdeal Cert.KernelIdeal.Gen
open Idealize.ShloMosaic Idealize.ShloMosaic.TcCoe
open Idealize.SL Idealize.SL.RA Idealize.SL.BI Idealize.SL.BI.BIBase Idealize.SL.Sem
open Idealize.ShloMosaic.Pipeline (Dat)

local notation "FF" => Ideal
local notation "𝕄F" => MT nD τ sig Unit (Elt FF) ℕ (UR sig nD τ) ℕ

def tblLit : pre1.Contents (Elt FF) := fun
  | ⟨0, _⟩ => fun i => lit0 (S10.rowMajor i)
  | ⟨1, _⟩ => fun i => lit1 (S10.rowMajor i)
  | ⟨_ + 2, h⟩ => absurd h (Nat.not_lt.2 (Nat.le_add_left _ _))

theorem okLit : ok1 (F := FF) tblLit := by decide +kernel

abbrev admL : (pcfg1 (F := FF)).Adm := ⟨tblLit, okLit⟩
abbrev cfgL : Pipeline.Cfg sig Λ₀ := cfg1 (F := FF) admL

theorem N_L : cfgL.N = 20 := by decide +kernel

def isInit (c : Dev nD) (t : Fin cfgL.N) : Prop := cInit (wd1 (F := FF) c (cfgL.grid.coords t) (tblLit 1))
def isDiag (c : Dev nD) (t : Fin cfgL.N) : Prop := cDiag (wd0 (F := FF) c (cfgL.grid.coords t) (tblLit 0)) (wd1 (F := FF) c (cfgL.grid.coords t) (tblLit 1))
instance (c : Dev nD) (t : Fin cfgL.N) : Decidable (isInit c t) := by unfold isInit; infer_instance
instance (c : Dev nD) (t : Fin cfgL.N) : Decidable (isDiag c t) := by unfold isDiag; infer_instance

theorem cOff_iff (w0 w1 : BitVec 32) : cOff w0 w1 ↔ ¬ cDiag w0 w1 := by
  unfold cOff cDiag k1_cond3
  rcases BitVec.eq_zero_or_eq_one (Scalar.cmpi .eq w1 w0) with h | h <;> rw [h] <;> decide

theorem init_zero : ∀ t : Fin cfgL.N, t.val = 0 → isInit (0 : Dev nD) t := by decide +kernel
theorem idle_iff : ∀ t : Fin cfgL.N, cfgL.idle 4 (cfgL.grid.coords t) = !decide (isDiag (0 : Dev nD) t) := by decide +kernel
theorem idle_noflush : ∀ t : Fin cfgL.N, cfgL.idle 4 (cfgL.grid.coords t) = true → (cfgL.win 4).flush t = false := by decide +kernel

theorem dev0 (c : Dev nD) : c = 0 := Subsingleton.elim _ _

section Region1

variable (V : (c : Dev nD) → (b : Ref sig .tc) → Buf (Elt FF) ((c : Thread nD τ).loc b))

def iblk1 (c : Dev nD) (w : Fin cfgL.W) (t : Fin cfgL.N) : ((cfgL.win w).xblock (cfgL.grid.coords t)).Idx → Elt FF (cfgL.win w).elt :=
  ((cfgL.win w).blk t).view.read (Elt FF) (V c (Pipeline.arrRef spec1 w))

abbrev ms0 (t : Fin cfgL.N) : Memref sig .tc .vmem S1x512x1024 .bf16 := spec1_0.stage (cfgL.slots t 0)
abbrev hs0 (t : Fin cfgL.N) : (ms0 t).IsWhole := hstage1_0 ((cfgL.slots t 0).cast nbuf1_0)
abbrev ms1 (t : Fin cfgL.N) : Memref sig .tc .vmem S1x512x1024 .bf16 := spec1_1.stage (cfgL.slots t 1)
abbrev hs1 (t : Fin cfgL.N) : (ms1 t).IsWhole := hstage1_1 ((cfgL.slots t 1).cast nbuf1_1)
abbrev ms2 (t : Fin cfgL.N) : Memref sig .tc .vmem S1024x1024 .bf16 := spec1_2.stage (cfgL.slots t 2)
abbrev hs2 (t : Fin cfgL.N) : (ms2 t).IsWhole := hstage1_2 ((cfgL.slots t 2).cast nbuf1_2)
abbrev ms3 (t : Fin cfgL.N) : Memref sig .tc .vmem S1x1024 .f32 := spec1_3.stage (cfgL.slots t 3)
abbrev hs3 (t : Fin cfgL.N) : (ms3 t).IsWhole := hstage1_3 ((cfgL.slots t 3).cast nbuf1_3)
abbrev ms4 (t : Fin cfgL.N) : Memref sig .tc .vmem S1x512x1024 .f32 := spec1_4.stage (cfgL.slots t 4)
abbrev hs4 (t : Fin cfgL.N) : (ms4 t).IsWhole := hstage1_4 ((cfgL.slots t 4).cast nbuf1_4)

abbrev bodyAt1 (t : Fin cfgL.N) : Prog (TpuEff nD τ sig (Elt FF) Λ₀ .tc) PUnit :=
  cc1__attn_wo_kernel (cfgL.grid.coords t) tbM0 (Memref.isWhole_whole _) tbM1 (Memref.isWhole_whole _) (ms0 t) (hs0 t) (ms1 t) (hs1 t)
    (ms2 t) (hs2 t) (ms3 t) (hs3 t) (ms4 t) (hs4 t) scM0 (Memref.isWhole_whole _) scM1 (Memref.isWhole_whole _) scM2 (Memref.isWhole_whole _)

abbrev St : Type := Vec FF S512x16 .f32 × Vec FF S512x16 .f32 × Vec FF S512x1024 .f32

def junkSt : St := (fun _ => Classical.arbitrary _, fun _ => Classical.arbitrary _, fun _ => Classical.arbitrary _)

theorem notOff_of_diag {c : Dev nD} {t : Fin cfgL.N} (h : isDiag c t) :
    ¬ cOff (wd0 (F := FF) c (cfgL.grid.coords t) (tblLit 0)) (wd1 (F := FF) c (cfgL.grid.coords t) (tblLit 1)) :=
  fun ho => (cOff_iff _ _).mp ho h
theorem off_of_notDiag {c : Dev nD} {t : Fin cfgL.N} (h : ¬ isDiag c t) :
    cOff (wd0 (F := FF) c (cfgL.grid.coords t) (tblLit 0)) (wd1 (F := FF) c (cfgL.grid.coords t) (tblLit 1)) :=
  (cOff_iff _ _).mpr h

abbrev runA (c : Dev nD) (t : Fin cfgL.N) (hI : isInit c t) (hD : isDiag c t) :=
  kernelRun1_A (F := FF) c (cfgL.grid.coords t) (ms0 t) (hs0 t) (ms1 t) (hs1 t) (ms2 t) (hs2 t) (ms3 t) (hs3 t) (ms4 t) (hs4 t)
    (iblk1 V c 0 t) (iblk1 V c 1 t) (iblk1 V c 2 t) (iblk1 V c 3 t) (tblLit 0) (tblLit 1) hI (notOff_of_diag hD) hD
abbrev runB (c : Dev nD) (t : Fin cfgL.N) (hI : isInit c t) (hD : ¬ isDiag c t) :=
  kernelRun1_B (F := FF) c (cfgL.grid.coords t) (ms0 t) (hs0 t) (ms1 t) (hs1 t) (ms2 t) (hs2 t) (ms3 t) (hs3 t) (ms4 t) (hs4 t)
    (iblk1 V c 0 t) (iblk1 V c 1 t) (iblk1 V c 2 t) (iblk1 V c 3 t) (tblLit 0) (tblLit 1) hI (off_of_notDiag hD) hD
abbrev runC (c : Dev nD) (t : Fin cfgL.N) (s : St) (hI : ¬ isInit c t) (hD : ¬ isDiag c t) :=
  kernelRun1_C (F := FF) c (cfgL.grid.coords t) (ms0 t) (hs0 t) (ms1 t) (hs1 t) (ms2 t) (hs2 t) (ms3 t) (hs3 t) (ms4 t) (hs4 t)
    (iblk1 V c 0 t) (iblk1 V c 1 t) (iblk1 V c 2 t) (iblk1 V c 3 t) (tblLit 0) (tblLit 1) s.1 s.2.1 s.2.2 hI (off_of_notDiag hD) hD
abbrev runD (c : Dev nD) (t : Fin cfgL.N) (s : St) (hI : ¬ isInit c t) (hD : isDiag c t) :=
  kernelRun1_D (F := FF) c (cfgL.grid.coords t) (ms0 t) (hs0 t) (ms1 t) (hs1 t) (ms2 t) (hs2 t) (ms3 t) (hs3 t) (ms4 t) (hs4 t)
    (iblk1 V c 0 t) (iblk1 V c 1 t) (iblk1 V c 2 t) (iblk1 V c 3 t) (tblLit 0) (tblLit 1) s.1 s.2.1 s.2.2 hI (notOff_of_diag hD) hD

def stepSt (c : Dev nD) (t : Fin cfgL.N) (s : St) : St :=
  if hI : isInit c t then
    if hD : isDiag c t then (View.canon (runA V c t hI hD).1.2.1, View.canon (runA V c t hI hD).1.2.2.1, View.canon (runA V c t hI hD).1.2.2.2)
    else (View.canon (runB V c t hI hD).1.1, View.canon (runB V c t hI hD).1.2.1, View.canon (runB V c t hI hD).1.2.2)
  else
    if hD : isDiag c t then (View.canon (runD V c t s hI hD).1.2.1, View.canon (runD V c t s hI hD).1.2.2.1, View.canon (runD V c t s hI hD).1.2.2.2)
    else (View.canon (runC V c t s hI hD).1.1, View.canon (runC V c t s hI hD).1.2.1, View.canon (runC V c t s hI hD).1.2.2)

def stAt (c : Dev nD) : Nat → St
  | 0 => junkSt
  | n + 1 => if h : n < cfgL.N then stepSt V c ⟨n, h⟩ (stAt c n) else stAt c n

theorem stAt_succ (c : Dev nD) (t : Fin cfgL.N) : stAt V c (t.val + 1) = stepSt V c t (stAt V c t.val) := by
  rw [stAt, dif_pos t.isLt]

def outAt (c : Dev nD) (t : Fin cfgL.N) : Vec FF S1x512x1024 .f32 :=
  if hI : isInit c t then
    if hD : isDiag c t then View.canon (runA V c t hI hD).1.1 else fun _ => Classical.arbitrary _
  else
    if hD : isDiag c t then View.canon (runD V c t (stAt V c t.val) hI hD).1.1 else fun _ => Classical.arbitrary _

def PhiAt (c : Dev nD) (t : Fin (cfgL.N + 1)) : sProp 𝕄F :=
  iprop(Pipeline.prefHeld pre1 c (fun _ => fullShare) tblLit
    ∗ (∃ f, ((c : Thread nD τ).loc cc0_stg0_0) ↦{fullShare} f)
    ∗ (∃ f, ((c : Thread nD τ).loc cc0_stg0_1) ↦{fullShare} f)
    ∗ (∃ f, ((c : Thread nD τ).loc cc0_stg1_0) ↦{fullShare} f)
    ∗ (∃ f, ((c : Thread nD τ).loc cc0_stg2_0) ↦{fullShare} f)
    ∗ (∃ f, ((c : Thread nD τ).loc cc0_stg2_1) ↦{fullShare} f)
    ∗ ∃ s : St, ⌜t.val ≠ 0 → s = stAt V c t.val⌝ ∗ scPt c scM0 s.1 ∗ scPt c scM1 s.2.1 ∗ scPt c scM2 s.2.2)

def dat1 (c : Dev nD) : Dat τ (Elt FF) Unit ℕ (UR sig nD τ) ℕ cfgL c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt V c t
  Φ t := PhiAt V c t
  q w := match w with
    | ⟨0, _⟩ => fullShare.left
    | ⟨1, _⟩ => fullShare.right
    | ⟨2, _⟩ => fullShare
    | ⟨3, _⟩ => fullShare
    | ⟨4, _⟩ => fullShare
  owed _ := 0

theorem after1_4 (c : Dev nD) (t : Fin cfgL.N) : (dat1 V c).after 4 t = outAt V c t := by dsimp only [dat1]

end Region1

end Cert.KernelIdeal.Hand

end
-- ==== Proof.KI1Body.lean ====
/- The second call's body obligation: at each grid point the body's run, in that point's case, carries the invariant
   to the next point and leaves each input block unchanged. -/
import proofs.«408594_j31722628448459_3_alg».proof.Proof.KI1Data

noncomputable section

namespace Cert.KernelIdeal.Hand

open Cert.KernelIdeal Cert.KernelIdeal.Gen
open Idealize.ShloMosaic Idealize.ShloMosaic.TcCoe
open Idealize.SL Idealize.SL.RA Idealize.SL.BI Idealize.SL.BI.BIBase Idealize.SL.Sem
open Idealize.ShloMosaic.Pipeline (Dat BodyObligation)

local notation "FF" => Ideal
local notation "𝕄F" => MT nD τ sig Unit (Elt FF) ℕ (UR sig nD τ) ℕ

/-- Stores that tile a whole buffer leave their canonical reading, whatever it held before. -/
theorem writes_tiled {κ : Kind} (b : Ref sig κ) (g : b.ty.Contents (Elt FF)) (L : List (View.Piece (Elt FF) b.ty.shape b.ty.elt))
    (size : Fin b.ty.shape.rank → ℕ) (h : View.Piece.tiled L size = true) : (Memref.whole b).view.writes (Elt FF) g L = View.canon L :=
  View.read_writes_eq_canon (.whole b) g L (View.cover_of_tiled L size h)

section Region1

variable (V : (c : Dev nD) → (b : Ref sig .tc) → Buf (Elt FF) ((c : Thread nD τ).loc b))

/-- The tables held whole are the two tables' buffers at their contents. -/
theorem prefHeld_eq (c : Dev nD) :
    (Pipeline.prefHeld pre1 c (fun _ => fullShare) tblLit : sProp 𝕄F)
      = iprop(tbPt c tbM0 (tblLit 0) ∗ tbPt c tbM1 (tblLit 1)) := by
  unfold Pipeline.prefHeld
  rw [show (Finset.univ : Finset (Fin pre1.K)) = insert (0 : Fin 2) {(1 : Fin 2)} from by decide,
    bigSep_insert (by decide), bigSep_singleton]
  rfl

variable (t : Fin cfgL.N)

/-- The body leaves each input block as it found it, so before the body an input holds its block at every point. -/
theorem before1 (c : Dev nD) : ∀ w : Fin cfgL.W, w ≠ 4 → ∀ d, (dat1 V c).before w t d = iblk1 V c w t
  | ⟨0, _⟩, _, d | ⟨1, _⟩, _, d | ⟨2, _⟩, _, d | ⟨3, _⟩, _, d =>
    ((dat1 V c).before_in_eq_fetched _ rfl (fun _ => rfl) (fun _ _ _ => rfl) (fun _ => rfl) t d).trans rfl
  | ⟨4, _⟩, h, _ => absurd rfl h

/-- At a diagonal point the one store is the whole output tile. -/
theorem diag_leaves (hD : isDiag 0 t) {W : PcsOut (F := FF)} (ho : outAt V 0 t = View.canon W) (hW : View.Piece.tiled W S1x512x1024.size = true) :
    iprop(∃ f, (ms4 t).view.loc ((0 : Dev nD) : Thread nD τ) ↦[(ms4 t).view.set]{fullShare} (ms4 t).view.writes (Elt FF) f W) ⊢ (dat1 V 0).leavesExact 4 t := by
  rw [show (dat1 V 0).leavesExact 4 t = owns ((0 : Dev nD) : Thread nD τ) (ms4 t) fullShare (View.canon W) from by
    unfold Dat.leavesExact; rw [idle_iff, decide_eq_true hD, after1_4, ho]; rfl]
  unfold owns
  iintro ⟨%f, H⟩; iexists _; iframe
  ipureintro; exact View.read_writes_eq_canon _ _ _ (View.cover_of_tiled W _ hW)

/-- Off the diagonal the output tile's buffer is left as it was. -/
theorem idle_leaves (hD : ¬ isDiag 0 t) (d) : owns ((0 : Dev nD) : Thread nD τ) (ms4 t) fullShare ((dat1 V 0).before 4 t d) ⊢ (dat1 V 0).leavesExact 4 t := by
  have hi : cfgL.idle 4 (cfgL.grid.coords t) = true := by rw [idle_iff, decide_eq_false hD]; rfl
  rw [(dat1 V 0).leavesExact_idle 4 t hi (idle_noflush t hi)]
  iintro H; iexists d; iexact H

/-- A point's obligation from any run there whose scratch stores tile the three buffers and are the next point's statistics. -/
theorem sound_of_run (s : St) {W0 W1 : PcsCol (F := FF)} {W2 : PcsAcc (F := FF)} {A B C D P Q Q' T0 T1 R1 R2 R3 R4 R5 O : sProp 𝕄F}
    {prog : Prog (TpuEff nD τ sig (Elt FF) Λ₀ .tc) PUnit}
    (hrun : ∀ K, iprop(A ∗ B ∗ C ∗ D ∗ P ∗ T0 ∗ T1 ∗ scPt 0 scM0 s.1 ∗ scPt 0 scM1 s.2.1 ∗ scPt 0 scM2 s.2.2
        ∗ (iprop(A ∗ B ∗ C ∗ D ∗ Q ∗ T0 ∗ T1
            ∗ (∃ f, scM0.view.loc ((0 : Dev nD) : Thread nD τ) ↦{fullShare} scM0.view.writes (Elt FF) f W0)
            ∗ (∃ f, scM1.view.loc ((0 : Dev nD) : Thread nD τ) ↦{fullShare} scM1.view.writes (Elt FF) f W1)
            ∗ (∃ f, scM2.view.loc ((0 : Dev nD) : Thread nD τ) ↦{fullShare} scM2.view.writes (Elt FF) f W2)) -∗ K ⟨⟩))
      ⊢ wp frame (wpE (defs₀ (F := FF)) Variants.none (0 : Dev nD) none) Set.univ prog K)
    (hst : stAt V 0 (t.val + 1) = (View.canon W0, View.canon W1, View.canon W2))
    (h0 : View.Piece.tiled W0 ![512, 1] = true) (h1 : View.Piece.tiled W1 ![512, 1] = true) (h2 : View.Piece.tiled W2 ![512, 64] = true)
    (hQ : Q ⊢ Q') :
    iprop(T0 ∗ T1 ∗ R1 ∗ R2 ∗ R3 ∗ R4 ∗ R5 ∗ scPt 0 scM0 s.1 ∗ scPt 0 scM1 s.2.1 ∗ scPt 0 scM2 s.2.2 ∗ O ∗ A ∗ B ∗ C ∗ D ∗ P)
      ⊢ wp frame (wpE (defs₀ (F := FF)) Variants.none (0 : Dev nD) none) Set.univ prog fun _ =>
        iprop(((T0 ∗ T1) ∗ R1 ∗ R2 ∗ R3 ∗ R4 ∗ R5
            ∗ ∃ s' : St, ⌜t.succ.val ≠ 0 → s' = stAt V 0 t.succ.val⌝ ∗ scPt 0 scM0 s'.1 ∗ scPt 0 scM1 s'.2.1 ∗ scPt 0 scM2 s'.2.2)
          ∗ O ∗ A ∗ B ∗ C ∗ D ∗ Q') := by
  iintro ⟨HT0, HT1, Ha, Hb, Hc, Hd, He, HS0, HS1, HS2, Ho, H0, H1, H2, H3, H4⟩
  iapply (hrun _)
  iframe
  iintro ⟨H0, H1, H2, H3, H8, HT0, HT1, ⟨%g0, HS0⟩, ⟨%g1, HS1⟩, ⟨%g2, HS2⟩⟩
  ihave H8 := hQ $$ H8
  iframe
  iexists (_, _, _); iframe
  ipureintro; intro _
  exact (congr (congrArg _ (writes_tiled cc1_scratch0 g0 W0 _ h0)) (congr (congrArg _ (writes_tiled cc1_scratch1 g1 W1 _ h1)) (writes_tiled cc1_scratch2 g2 W2 _ h2))).trans hst.symm

theorem body_obligation1 (c : Dev nD) : BodyObligation (dat1 V c) (defs₀ (F := FF)) Variants.none () Set.univ := fun t => by
  rw [bigSep_W1, bigSep_W1]
  show iprop(PhiAt V c t.castSucc ∗ (dat1 V c).owesAt () t.castSucc
      ∗ (∃ d, owns (c : Thread nD τ) (ms0 t) fullShare ((dat1 V c).before 0 t d))
      ∗ (∃ d, owns (c : Thread nD τ) (ms1 t) fullShare ((dat1 V c).before 1 t d))
      ∗ (∃ d, owns (c : Thread nD τ) (ms2 t) fullShare ((dat1 V c).before 2 t d))
      ∗ (∃ d, owns (c : Thread nD τ) (ms3 t) fullShare ((dat1 V c).before 3 t d))
      ∗ (∃ d, owns (c : Thread nD τ) (ms4 t) fullShare ((dat1 V c).before 4 t d)))
    ⊢ wp frame (wpE (defs₀ (F := FF)) Variants.none c none) Set.univ (bodyAt1 t) fun _ =>
      iprop(PhiAt V c t.succ ∗ (dat1 V c).owesAt () t.castSucc
        ∗ owns (c : Thread nD τ) (ms0 t) fullShare (iblk1 V c 0 t) ∗ owns (c : Thread nD τ) (ms1 t) fullShare (iblk1 V c 1 t)
        ∗ owns (c : Thread nD τ) (ms2 t) fullShare (iblk1 V c 2 t) ∗ owns (c : Thread nD τ) (ms3 t) fullShare (iblk1 V c 3 t)
        ∗ (dat1 V c).leavesExact 4 t)
  obtain rfl := dev0 c
  simp (disch := decide) only [before1 V t 0]
  unfold PhiAt
  rw [prefHeld_eq]
  iintro ⟨⟨⟨HT0, HT1⟩, Ha, Hb, Hc, Hd, He, ⟨%s, %hs, HS0, HS1, HS2⟩⟩, Ho, ⟨%d0, H0⟩, ⟨%d1, H1⟩, ⟨%d2, H2⟩, ⟨%d3, H3⟩, ⟨%d4, H4⟩⟩
  by_cases hI : isInit 0 t <;> by_cases hD : isDiag 0 t
  · iapply (sound_of_run V t s ((runA V 0 t hI hD).2 s.1 s.2.1 s.2.2 Set.univ) (by rw [stAt_succ, stepSt, dif_pos hI, dif_pos hD]) rfl rfl rfl
      (diag_leaves V t hD (by rw [outAt, dif_pos hI, dif_pos hD]) rfl))
    iframe
    iexists _; iexact H4
  · iapply (sound_of_run V t s ((runB V 0 t hI hD).2 _ s.1 s.2.1 s.2.2 Set.univ) (by rw [stAt_succ, stepSt, dif_pos hI, dif_neg hD]) rfl rfl rfl
      (idle_leaves V t hD d4))
    iframe
  · obtain rfl : s = stAt V 0 t.val := hs fun h0 => hI (init_zero t h0)
    iapply (sound_of_run V t _ ((runD V 0 t (stAt V 0 t.val) hI hD).2 Set.univ) (by rw [stAt_succ, stepSt, dif_neg hI, dif_pos hD]) rfl rfl rfl
      (diag_leaves V t hD (by rw [outAt, dif_neg hI, dif_pos hD]) rfl))
    iframe
    iexists _; iexact H4
  · obtain rfl : s = stAt V 0 t.val := hs fun h0 => hI (init_zero t h0)
    iapply (sound_of_run V t _ ((runC V 0 t (stAt V 0 t.val) hI hD).2 _ Set.univ) (by rw [stAt_succ, stepSt, dif_neg hI, dif_neg hD]) rfl rfl rfl
      (idle_leaves V t hD d4))
    iframe

end Region1

end Cert.KernelIdeal.Hand

end
-- ==== Proof.KIRunA.lean ====
/- The program as four segments (host operations, the first call, host operations, the second call): what the program's
   buffers hold at each boundary, each call's proof data at its entry contents, and the first call as a segment. -/
import proofs.«408594_j31722628448459_3_alg».proof.Proof.KI0
import proofs.«408594_j31722628448459_3_alg».proof.Proof.KI1Body
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.BI Idealize.SL.BI.BIBase
open Idealize.ShloMosaic.Pipeline (Dat)

local notation "FF" => Ideal
local notation "𝕄F" => MT nD τ sig Unit (Elt FF) ℕ (UR sig nD τ) ℕ

variable (m : (ℓ : Loc nD τ sig) → Buf (Elt FF) ℓ) (ρ : Dev nD → PrngReg)

abbrev W0 : Dev nD → Valuation τ sig (Elt FF) := fun c b => (s₀ m ρ).mem ((c : Dev nD), b)
abbrev W1 : Dev nD → Valuation τ sig (Elt FF) := fun c => StableHlo.after hostOps0 (W0 m ρ c)
abbrev V1 : (c : Dev nD) → (b : Ref sig .tc) → Buf (Elt FF) ((c : Thread nD τ).loc b) := fun c b => W1 m ρ c b
/-- The first call changes its own arrays only. -/
def W2 (c : Dev nD) : Valuation τ sig (Elt FF) :=
  Pipeline.withArrays spec0 c (W1 m ρ c) fun w => (dat0 (F := FF) (V1 m ρ) c).arrAt w cfg0.N
theorem W2_arr (c : Dev nD) (w : Fin cfg0.W) :
    W2 m ρ c (Proc.devRef .tc (Pipeline.arrRef spec0 w)) = (dat0 (F := FF) (V1 m ρ) c).arrAt w cfg0.N := by
  unfold W2; exact Pipeline.withArrays_arr spec0 winFacts0.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt FF) ((c : Thread nD τ).loc b) := fun c b => W2 m ρ c b
abbrev W3 : Dev nD → Valuation τ sig (Elt FF) := fun c => StableHlo.after hostOps1 (W2 m ρ c)
abbrev V3 : (c : Dev nD) → (b : Ref sig .tc) → Buf (Elt FF) ((c : Thread nD τ).loc b) := fun c b => W3 m ρ c b
/-- The second call changes the result only. -/
def W4 (c : Dev nD) : Valuation τ sig (Elt FF) :=
  Function.update (W3 m ρ c) (Proc.devRef .tc main_v5) ((dat1 (V3 m ρ) c).arrAt 4 cfgL.N)
abbrev V4 : (c : Dev nD) → (b : Ref sig .tc) → Buf (Elt FF) ((c : Thread nD τ).loc b) := fun c b => W4 m ρ c b

/-- Only the second call has tables. -/
abbrev adm : (p : Fin 2) → (pcfgs (F := FF) p).Adm := fun
  | ⟨0, _⟩ => (cfg0.toPCfg_adm : (cfg0.toPCfg (Val := Elt FF)).Adm)
  | ⟨1, _⟩ => admL
  | ⟨_ + 2, h⟩ => absurd h (Nat.not_lt.2 (Nat.le_add_left _ _))

def pdats : (p : Fin 2) → (c : Dev nD) → Dat τ (Elt FF) Unit ℕ (UR sig nD τ) ℕ (Pipeline.pin (pcfgs (F := FF)) adm p) c
  | ⟨0, _⟩ => fun c => dat0 (F := FF) (V1 m ρ) c
  | ⟨1, _⟩ => fun c => dat1 (V3 m ρ) c

abbrev 𝒱₀ : Variants := Variants.none
abbrev L : GSem nD τ sig → Finset Unit := fun _ => ∅
abbrev lv : GSem nD τ sig → Unit → ℕ := fun _ _ => 0
/-- Carried unchanged through every segment. -/
abbrev R (c : Dev nD) : sProp 𝕄F := iprop((∃ r, prngReg c r) ∗ ∃ W, owes (c : Thread nD τ) (0 : CellTallies nD τ sig Unit) W)

abbrev hseg (ops : List (HloOp τ sig (Elt FF))) (hsub : ops.Forall fun op => op.bufs ⊆ StableHlo.tcRefs τ sig)
    (hfresh : ops.Forall fun op => op.fresh = ∅) (W : Dev nD → Valuation τ sig (Elt FF)) :
    Pipeline.HostSeg (Name := ℕ) (U := UR sig nD τ) (pcfgs (F := FF)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
def reg0 : Pipeline.RegionSeg (pcfgs (F := FF)) adm (pdats m ρ) () defs₀ 𝒱₀ L lv 0 where
  win := winFacts0.to₀
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest spec0 c (V1 m ρ c)
  hentry c := by
    rw [Pipeline.ownSems0_none]
    have hsplit := Pipeline.arrays_of_unscopedBufs (p := 0) (pcfgs (F := FF)) adm (pdats m ρ) winFacts0 arr_whole0 c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    rw [show (pdats m ρ 0 c).Φ 0 = Pipeline.ΦA spec0 c from rfl]; unfold Pipeline.ΦA
    iintro ⟨Hp, -, Hr⟩
    iframe
  hout c := by
    rw [Pipeline.ownSems0_none, show (pdats m ρ 0 c).Φ (Fin.last _) = Pipeline.ΦA spec0 c from rfl]; unfold Pipeline.ΦA
    iintro ⟨Hr, Hp⟩
    iframe; iempintro
  hexit c := by
    have hjoin := Pipeline.unscopedBufs_of_arrays (p := 0) (pcfgs (F := FF)) adm winFacts0 arr_whole0 c (pdats m ρ) ((pdats m ρ 0 c).share_full fun _ => rfl)
      (V1 m ρ c) (V2 m ρ c) ((pdats m ρ 0 c).arrAt · cfg0.N) (fun w => (W2_arr m ρ c w).symm)
      fun b hb => W2_of_ne m ρ c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRunB.lean ====
/- The second call as a segment, then the whole run: it terminates without fault on every weakly fair schedule and leaves
   each of the program's buffers at its contents after the last segment. -/
import proofs.«408594_j31722628448459_3_alg».proof.Proof.KIRunA
import proofs.«408594_j31722628448459_3_alg».proof.Proof.Gen.KernelIdeal.Regions

noncomputable section

namespace Cert.KernelIdeal.Hand

open Cert.KernelIdeal Cert.KernelIdeal.Gen
open Idealize.ShloMosaic Idealize.ShloMosaic.TcCoe Idealize.ShloMosaic.Tactic Idealize.ShloMosaic.Rounds
open Idealize.SL Idealize.SL.RA Idealize.SL.BI Idealize.SL.BI.BIBase
open Idealize.ShloMosaic.Pipeline (Dat)

local notation "FF" => Ideal
local notation "𝕄F" => MT nD τ sig Unit (Elt FF) ℕ (UR sig nD τ) ℕ

variable (m : (ℓ : Loc nD τ sig) → Buf (Elt FF) ℓ) (ρ : Dev nD → PrngReg)

theorem sep_eq (P Q : sProp 𝕄F) : BI.sep P Q = iprop(P ∗ Q) := rfl

theorem unscopedBufs_list (c : Dev nD) (V : (b : Ref sig .tc) → Buf (Elt FF) ((c : Thread nD τ).loc b)) :
    (unscopedBufs c V : sProp 𝕄F) = bigSepL [main_arg0, main_arg1, main_arg2, main_arg3, main_v0, main_v1, main_v2, main_v3, main_v4, main_v5, main_c, main_c_0]
      fun b => ((c : Thread nD τ).loc b) ↦{fullShare} V b := by
  unfold unscopedBufs
  exact bigSep_eq_bigSepL_of_eq _ (by decide) (by decide) _

/-- A buffer that neither the first call nor the host operations after it write enters both calls with the same contents. -/
theorem V3_eq_V1 (c : Dev nD) (b : Ref sig .tc) (h3 : b ∉ hostOps1_W := by decide) (h2 : ∀ w, Pipeline.arrRef spec0 w ≠ b := by decide) :
    V3 m ρ c b = V1 m ρ c b :=
  (StableHlo.after_of_writes_sub hostOps1 _ hostOps1_writes h3).trans (W2_of_ne m ρ c b h2)

/-- The second call finds the two tables at the constants the first host stretch wrote. -/
theorem V3_tbl (c : Dev nD) : V3 m ρ c main_c = (tblLit 0 : Buf (Elt FF) ((c : Thread nD τ).loc main_c))
    ∧ V3 m ρ c main_c_0 = (tblLit 1 : Buf (Elt FF) ((c : Thread nD τ).loc main_c_0)) := by
  constructor <;> refine (V3_eq_V1 m ρ c _).trans ?_ <;> show StableHlo.after hostOps0 (W0 m ρ c) _ = _ <;> after_results <;> rfl

theorem arrays1_eq (V : (c : Dev nD) → (b : Ref sig .tc) → Buf (Elt FF) ((c : Thread nD τ).loc b)) (c : Dev nD)
    (G : (w : Fin cfgL.W) → Buf (Elt FF) ((cfgL.win w).arr.view.loc (c : Thread nD τ))) :
    (dat1 V c).arrays G = bigSep Finset.univ fun w : Fin cfgL.W =>
      (((c : Thread nD τ).loc (Pipeline.arrRef spec1 w)) ↦{(dat1 V c).share w} G w : sProp 𝕄F) := by
  unfold Dat.arrays
  exact bigSep_congr fun w _ => by rw [(arr_whole1 w).set_eq_univ]

theorem V4_of_ne (c : Dev nD) (b : Ref sig .tc) (h : b ≠ main_v5) : V4 m ρ c b = V3 m ρ c b :=
  Function.update_of_ne (StableHlo.devRef_ne_of_ne h) _ _
theorem V4_main_v5 (c : Dev nD) : V4 m ρ c main_v5 = (dat1 (V3 m ρ) c).arrAt 4 cfgL.N :=
  Function.update_self _ _ _

abbrev Tₙ (c : Dev nD) : sProp 𝕄F := iprop(StableHlo.held (c : Thread nD τ) (Pipeline.ucRefs τ sig) (W4 m ρ c) ∗ ∃ r, prngReg c r)

set_option backward.isDefEq.respectTransparency.types false in
def reg1 : Pipeline.RegionSeg (pcfgs (F := FF)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(emp)
  Y c := Pipeline.prefHeld pre1 c (fun _ => fullShare) tblLit
  Z c := iprop((∃ r, prngReg c r) ∗ Pipeline.unscopedRestP pre1 spec1 c (V3 m ρ c))
  hentry c := by
    rw [Pipeline.ownSems0_none,
      show StableHlo.held (c : Thread nD τ) (Pipeline.ucRefs τ sig) (W3 m ρ c) = unscopedBufs c (V3 m ρ c) from (Pipeline.unscopedBufs_held c _).symm,
      unscopedBufs_list]
    simp only [bigSepL_cons_cons, bigSepL_singleton, sep_eq]
    rw [unscopedRestP1_eq, (V3_tbl m ρ c).1, (V3_tbl m ρ c).2,
      show (pdats m ρ 1 c).arrays ((pdats m ρ 1 c).arrAt · 0) = (dat1 (V3 m ρ) c).arrays ((dat1 (V3 m ρ) c).arrAt · 0) from rfl,
      arrays1_eq, bigSep_W1,
      show (Pipeline.prefHeld (pcfgs (F := FF) 1).pre c (fun _ => fullShare) tblLit : sProp 𝕄F) = _ from prefHeld_eq c]
    iintro ⟨⟨⟨Ha0, Ha1, Ha2, Ha3, Hv0, Hv1, Hv2, Hv3, Hv4, Hv5, Hc0, Hc1⟩, Hp, HO⟩, -, -⟩
    ihave H2 := (pointsTo_share (PosShare.mem_left_op_right fullShare)).1 $$ Hv2
    icases H2 with ⟨Hv2l, Hv2r⟩
    imodintro
    isplitl [Hv2l Hv2r Hv3 Hv4 Hv5]
    · isplitl [Hv2l]; · iexact Hv2l
      isplitl [Hv2r]; · iexact Hv2r
      isplitl [Hv3]; · iexact Hv3
      isplitl [Hv4]; · iexact Hv4
      iexact Hv5
    iframe Hc0 Hc1 Hp Ha0 Ha1 Ha2 Ha3 Hv0 Hv1
    unfold Pipeline.Dat.owesAt Pipeline.owesWithin
    icases HO with ⟨%W, HO⟩; iexists W; isplitr; · ipureintro; exact fun _ _ => Or.inl trivial
    iexact HO
  hin c := by
    rw [show (pdats m ρ 1 c).Φ 0 = PhiAt (V3 m ρ) c 0 from rfl,
      show (Pipeline.scopedRest (Pipeline.pin (pcfgs (F := FF)) adm 1).spec c : sProp 𝕄F) = _ from scopedRest1_eq c]; unfold PhiAt
    iintro ⟨-, HT, Ha, Hb, Hc, Hd, He, ⟨%f0, HS0⟩, ⟨%f1, HS1⟩, ⟨%f2, HS2⟩⟩
    iframe HT Ha Hb Hc Hd He
    iexists (f0, f1, f2); isplitr
    · ipureintro; intro h; exact absurd rfl h
    iframe
  hout c := by
    rw [Pipeline.ownSems0_none, show (pdats m ρ 1 c).Φ (Fin.last _) = PhiAt (V3 m ρ) c (Fin.last _) from rfl,
      show (Pipeline.scopedRest (Pipeline.pin (pcfgs (F := FF)) adm 1).spec c : sProp 𝕄F) = _ from scopedRest1_eq c]; unfold PhiAt
    iintro ⟨HT, Ha, Hb, Hc, Hd, He, ⟨%s, -, HS0, HS1, HS2⟩⟩
    iframe HT Ha Hb Hc Hd He
    isplitr; · iempintro
    isplitl [HS0]; · iexists _; iexact HS0
    isplitl [HS1]; · iexists _; iexact HS1
    iexists _; iexact HS2
  hexit c := by
    dsimp only [Tₙ]
    rw [show StableHlo.held (c : Thread nD τ) (Pipeline.ucRefs τ sig) (W4 m ρ c) = unscopedBufs c (V4 m ρ c) from (Pipeline.unscopedBufs_held c _).symm,
      unscopedBufs_list, unscopedRestP1_eq]
    simp (disch := decide) only [bigSepL_cons_cons, bigSepL_singleton, sep_eq, V4_of_ne m ρ c, V4_main_v5]
    rw [(V3_tbl m ρ c).1, (V3_tbl m ρ c).2,
      show (pdats m ρ 1 c).arrays ((pdats m ρ 1 c).arrAt · (Pipeline.pin (pcfgs (F := FF)) adm 1).N) = (dat1 (V3 m ρ) c).arrays ((dat1 (V3 m ρ) c).arrAt · cfgL.N) from rfl,
      arrays1_eq, bigSep_W1, prefHeld_eq,
      (dat1 (V3 m ρ) c).arrAt_in 0 rfl, (dat1 (V3 m ρ) c).arrAt_in 1 rfl, (dat1 (V3 m ρ) c).arrAt_in 2 rfl, (dat1 (V3 m ρ) c).arrAt_in 3 rfl]
    iintro ⟨⟨Hv2l, Hv2r, Hv3, Hv4, Hv5⟩, HO, ⟨Hc0, Hc1⟩, ⟨Hp, Ha0, Ha1, Ha2, Ha3, Hv0, Hv1⟩⟩
    ihave Hv2 := (pointsTo_share (PosShare.mem_left_op_right fullShare)).2 $$ [Hv2l Hv2r]
    · isplitl [Hv2l]; · iexact Hv2l
      iexact Hv2r
    imodintro
    iframe Hc0 Hc1 Hp Ha0 Ha1 Ha2 Ha3 Hv0 Hv1
    isplitr [HO]
    · isplitl [Hv2]; · iexact Hv2
      isplitl [Hv3]; · iexact Hv3
      isplitl [Hv4]; · iexact Hv4
      iexact Hv5
    unfold Pipeline.Dat.owesAt Pipeline.owesWithin
    icases HO with ⟨%W, -, HO⟩; iexists W; iexact HO

abbrev segs : List (Pipeline.Seg (pcfgs (F := FF)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]

theorem main_run (c : Dev nD) : main (F := FF) c = Pipeline.Seg.run (segs m ρ) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
theorem run_main : θ_run defs (onTc (τ := τ) (main (F := FF))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := FF)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells (Pipeline.pin (pcfgs (F := FF)) adm) (cellOf_inj adm)) (Pipeline.launchToks (Pipeline.pin (pcfgs (F := FF)) adm) (cellOf_inj adm)))
    (hu₀ := by rw [ownU_emb₁, BI.bigSep_emp_const]; iintro Hu; imodintro; iframe; iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.KIFrame.lean ====
/- The run read at its end: the result holds the second call's output array, and each argument, which no host operation
   and no call writes, holds what it held at launch. -/
import proofs.«408594_j31722628448459_3_alg».proof.Proof.KIRunB

noncomputable section

namespace Cert.KernelIdeal.Hand

open Cert.KernelIdeal Cert.KernelIdeal.Gen
open Idealize.ShloMosaic Idealize.ShloMosaic.TcCoe

local notation "FF" => Ideal

variable (m : (ℓ : Loc nD τ sig) → Buf (Elt FF) ℓ) (ρ : Dev nD → PrngReg)

/-- A buffer other than the result that neither host stretch writes and the first call leaves as entered ends as launched. -/
theorem W4_keep (c : Dev nD) (b : Ref sig .tc) (h2 : W2 m ρ c (Proc.devRef .tc b) = W1 m ρ c (Proc.devRef .tc b))
    (h4 : b ≠ main_v5 := by decide) (h3 : b ∉ hostOps1_W := by decide) (h1 : b ∉ hostOps0_W := by decide) :
    W4 m ρ c (Proc.devRef .tc b) = m ((c : Thread nD τ).loc b) :=
  (V4_of_ne m ρ c b h4).trans <| (StableHlo.after_of_writes_sub hostOps1 _ hostOps1_writes h3).trans <| h2.trans <|
    (StableHlo.after_of_writes_sub hostOps0 _ hostOps0_writes h1).trans rfl

theorem run_result : θ_run defs (onTc (τ := τ) (main (F := FF))) ⟨m, fun _ => 0, ρ⟩ (fun r => ∀ c : Dev nD,
      r.2.mem ((c.tc : Thread nD τ).loc main_v5) = (dat1 (V3 m ρ) c).arrAt 4 cfgL.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v5 (by decide))).trans (V4_main_v5 m ρ c),
     (h c _ (mem_uc main_arg0 (by decide))).trans (W4_keep m ρ c main_arg0 (W2_of_ne m ρ c _ (by decide))),
     (h c _ (mem_uc main_arg1 (by decide))).trans (W4_keep m ρ c main_arg1
       ((W2_arr m ρ c 1).trans ((dat0 (F := FF) (V1 m ρ) c).arrAt_in 1 rfl _))),
     (h c _ (mem_uc main_arg2 (by decide))).trans (W4_keep m ρ c main_arg2 (W2_of_ne m ρ c _ (by decide))),
     (h c _ (mem_uc main_arg3 (by decide))).trans (W4_keep m ρ c main_arg3 (W2_of_ne m ρ c _ (by decide)))⟩) (run_main m ρ)

theorem frame : θ_run defs (onTc (τ := τ) (main (F := FF))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ)

end Cert.KernelIdeal.Hand

end
-- ==== Proof.Spec.lean ====
/- Causal multi-head self-attention over the extended reals, with the query projection serving as queries, keys and
   values: q = x · Wqᵀ, per head softmax (causal (q qᵀ / 8)) q, then · Woᵀ + bo. -/
import Idealize.ShloMosaic.PureOps.Ideal
import Idealize.ShloMosaic.Lib.ValueIdx

noncomputable section

namespace Cert.Attn

open Idealize.ShloMosaic

/-- Feature d of head h among the 1024. -/
def col (h : Fin 16) (d : Fin 64) : Fin 1024 := ⟨64 * h.val + d.val, by omega⟩

def headOf (e : Fin 1024) : Fin 16 := ⟨e.val / 64, by omega⟩

section
variable (x : Fin 2 → Fin 2048 → Fin 1024 → EReal) (Wq Wo : Fin 1024 → Fin 1024 → EReal) (bo : Fin 1024 → EReal)

def qp (b : Fin 2) (s : Fin 2048) (e : Fin 1024) : EReal := ∑ d : Fin 1024, x b s d * Wq e d

def score (b : Fin 2) (h : Fin 16) (s k : Fin 2048) : EReal :=
  ∑ d : Fin 64, qp x Wq b s (col h d) * qp x Wq b k (col h d)

/-- The causal, scaled logit: -∞ for a key after the query. -/
def logit (b : Fin 2) (h : Fin 16) (s k : Fin 2048) : EReal :=
  Ideal.div (if s.val < k.val then ⊥ else score x Wq b h s k) ((8 : ℝ) : EReal)

def rowMax (b : Fin 2) (h : Fin 16) (s : Fin 2048) : EReal := Finset.univ.sup fun k => logit x Wq b h s k

def expo (b : Fin 2) (h : Fin 16) (s k : Fin 2048) : EReal := Ideal.exp (logit x Wq b h s k - rowMax x Wq b h s)

def denom (b : Fin 2) (h : Fin 16) (s : Fin 2048) : EReal := ∑ k : Fin 2048, expo x Wq b h s k

def attn (b : Fin 2) (h : Fin 16) (s k : Fin 2048) : EReal := Ideal.div (expo x Wq b h s k) (denom x Wq b h s)

/-- The context, heads side by side: feature e belongs to head e / 64. -/
def ctx (b : Fin 2) (s : Fin 2048) (e : Fin 1024) : EReal :=
  ∑ k : Fin 2048, attn x Wq b (headOf e) s k * qp x Wq b k e

def result (b : Fin 2) (s : Fin 2048) (e : Fin 1024) : EReal :=
  (∑ d : Fin 1024, ctx x Wq b s d * Wo e d) + bo e

end

open Idealize.ShloMosaic.ValueIdx

abbrev Sx : Shape := ⟨3, ![2, 2048, 1024]⟩
abbrev Sw : Shape := ⟨2, ![1024, 1024]⟩
abbrev Sb : Shape := ⟨1, ![1024]⟩

/-- The result array as one function of the four argument arrays. -/
def G (x0 : Sx.Idx → EReal) (wq wo : Sw.Idx → EReal) (b0 : Sb.Idx → EReal) : Sx.Idx → EReal :=
  fun i => result (fun b s d => x0 (ix3 b s d)) (fun e d => wq (ix2 e d)) (fun e d => wo (ix2 e d)) (fun e => b0 (ix1 e))
    (i 0) (i 1) (i 2)

end Cert.Attn

end
-- ==== Proof.Step.lean ====
/- One key tile's update of a query row's online-softmax statistics: the new maximum, and the old sums rescaled by
   exp (old maximum - new maximum) plus the tile's terms; on the query's own tile the accumulator is normalised. -/
import proofs.«408594_j31722628448459_3_alg».proof.Proof.Spec

noncomputable section

namespace Cert.Attn

open Idealize.ShloMosaic

/-- The logit of row r against key cc of the tile for head h; on the query's own tile a key after the query gives -∞. -/
def tileLogit (masked : Bool) (qb kb : Fin 512 → Fin 1024 → EReal) (h : Fin 16) (r cc : Fin 512) : EReal :=
  if masked = true ∧ r.val < cc.val then ⊥ else (∑ d : Fin 64, qb r (col h d) * kb cc (col h d)) * ((0.125 : ℝ) : EReal)

def stepM (m0 : EReal) (lg : Fin 512 → EReal) : EReal := max m0 (Finset.univ.sup lg)
def stepL (m0 l0 : EReal) (lg : Fin 512 → EReal) : EReal :=
  Ideal.exp (m0 - stepM m0 lg) * l0 + ∑ cc : Fin 512, Ideal.exp (lg cc - stepM m0 lg)
def stepA (m0 a0 : EReal) (lg vals : Fin 512 → EReal) : EReal :=
  Ideal.exp (m0 - stepM m0 lg) * a0 + ∑ cc : Fin 512, Ideal.exp (lg cc - stepM m0 lg) * vals cc
def finA (a l : EReal) : EReal := a * Ideal.div 1 l
def outE (an : Fin 1024 → EReal) (wo : Fin 1024 → Fin 1024 → EReal) (bo : Fin 1024 → EReal) (e : Fin 1024) : EReal :=
  (∑ d : Fin 1024, an d * wo e d) + bo e

/-- A row's statistics: maximum and denominator per head, accumulator per feature. -/
structure RowSt where
  m : Fin 16 → EReal
  l : Fin 16 → EReal
  a : Fin 1024 → EReal

def RowSt.reset : RowSt := ⟨fun _ => ⊥, fun _ => 0, fun _ => 0⟩

/-- One tile's effect on a row's statistics, from the reset statistics when init is set. -/
def rowStep (init masked : Bool) (qb kb : Fin 512 → Fin 1024 → EReal) (r : Fin 512) (s : RowSt) : RowSt :=
  let s0 : RowSt := if init = true then RowSt.reset else s
  let lg : Fin 16 → Fin 512 → EReal := fun h => tileLogit masked qb kb h r
  let m' : Fin 16 → EReal := fun h => stepM (s0.m h) (lg h)
  let l' : Fin 16 → EReal := fun h => stepL (s0.m h) (s0.l h) (lg h)
  let a' : Fin 1024 → EReal := fun e => stepA (s0.m (headOf e)) (s0.a e) (lg (headOf e)) (fun cc => kb cc e)
  ⟨m', l', if masked = true then fun e => finA (a' e) (l' (headOf e)) else a'⟩

end Cert.Attn

end
-- ==== Proof.KI1ValDefs.lean ====
/- A query row's running statistics and a point's four inputs, as plain arrays. -/
import proofs.«408594_j31722628448459_3_alg».proof.Proof.KI1Data
import proofs.«408594_j31722628448459_3_alg».proof.Proof.Step

noncomputable section

namespace Cert.KernelIdeal.Hand

open Cert.KernelIdeal Cert.KernelIdeal.Gen Idealize.ShloMosaic Idealize.ShloMosaic.TcCoe Idealize.SL.Sem
open Cert.Attn Idealize.ShloMosaic.ValueIdx

/-- The statistics of row r: a maximum and a denominator for each head, an accumulator for each feature. -/
def rowOf (s : St) (r : Fin 512) : RowSt :=
  ⟨fun h => s.1 (ix2 r h), fun h => s.2.1 (ix2 r h), fun e => s.2.2 (ix2 r e)⟩

variable (V : (c : Dev nD) → (b : Ref sig .tc) → Buf (Elt Ideal) ((c : Thread nD τ).loc b))

/-- A point's query tile, key tile, output weight and bias, indexed by row and feature. -/
def qblk (c : Dev nD) (t : Fin cfgL.N) : Fin 512 → Fin 1024 → EReal := fun r e => iblk1 V c 0 t (ix3 (0 : Fin 1) r e)
def kblk (c : Dev nD) (t : Fin cfgL.N) : Fin 512 → Fin 1024 → EReal := fun r e => iblk1 V c 1 t (ix3 (0 : Fin 1) r e)
def woblk (c : Dev nD) (t : Fin cfgL.N) : Fin 1024 → Fin 1024 → EReal := fun e d => iblk1 V c 2 t (ix2 e d)
def boblk (c : Dev nD) (t : Fin cfgL.N) : Fin 1024 → EReal := fun e => iblk1 V c 3 t (ix2 (0 : Fin 1) e)

end Cert.KernelIdeal.Hand

end
-- ==== Proof.LibOnlineSoftmax.lean ====
/- Softmax statistics of a finite set of keys: the maximum logit, the sum of the exponentials against it and the same
   sum weighted by values; the recurrence that adds a disjoint batch of keys; the normalised result. -/
import Idealize.ShloMosaic.PureOps.Ideal

noncomputable section

namespace Cert.OnlineSoftmax

open Idealize.ShloMosaic

variable {ι : Type} [DecidableEq ι]

/-- The maximum logit over S (-∞ over the empty set). -/
def mx (S : Finset ι) (f : ι → EReal) : EReal := S.sup f
/-- The sum over S of the exponentials of the logits against S's maximum. -/
def sm (S : Finset ι) (f : ι → EReal) : EReal := ∑ k ∈ S, Ideal.exp (f k - mx S f)
/-- The same sum weighted by the values. -/
def ws (S : Finset ι) (f v : ι → EReal) : EReal := ∑ k ∈ S, Ideal.exp (f k - mx S f) * v k

/-- A maximum of logits below +∞ is below +∞. -/
theorem mx_ne_top (S : Finset ι) {f : ι → EReal} (hf : ∀ k, f k ≠ ⊤) : mx S f ≠ ⊤ :=
  ((Finset.sup_lt_iff bot_lt_top).mpr fun k _ => lt_top_iff_ne_top.mpr (hf k)).ne

/-- A finite sum of real numbers is a real number. -/
theorem real_sum (S : Finset ι) (g : ι → EReal) (hg : ∀ k ∈ S, g k ≠ ⊤ ∧ g k ≠ ⊥) :
    (∑ k ∈ S, g k) ≠ ⊤ ∧ (∑ k ∈ S, g k) ≠ ⊥ := by
  induction S using Finset.induction_on with
  | empty => rw [Finset.sum_empty]; exact ⟨EReal.zero_ne_top, EReal.zero_ne_bot⟩
  | insert a s ha ih =>
    have h := ih fun k hk => hg k (Finset.mem_insert_of_mem hk)
    have hga := hg a (Finset.mem_insert_self a s)
    rw [Finset.sum_insert ha]
    exact ⟨EReal.add_ne_top hga.1 h.1, EReal.add_ne_bot_iff.mpr ⟨hga.2, h.2⟩⟩

/-- A nonnegative real factor distributes over a finite sum. -/
theorem mul_sum {c : EReal} (h0 : 0 ≤ c) (ht : c ≠ ⊤) (S : Finset ι) (g : ι → EReal) :
    c * ∑ k ∈ S, g k = ∑ k ∈ S, c * g k := by
  induction S using Finset.induction_on with
  | empty => rw [Finset.sum_empty, Finset.sum_empty, mul_zero]
  | insert a s ha ih =>
    rw [Finset.sum_insert ha, Finset.sum_insert ha, EReal.left_distrib_of_nonneg_of_ne_top h0 ht, ih]

/-- An exponential is nonnegative. -/
theorem exp_nonneg (y : EReal) : 0 ≤ Ideal.exp y := by
  induction y using EReal.rec with
  | bot => exact le_rfl
  | top => exact le_top
  | coe r => exact EReal.coe_nonneg.mpr (Real.exp_pos r).le

/-- For x ≤ M ≤ U < +∞, exp (x - U) = exp (M - U) * exp (x - M), a real number: at x = -∞ both sides are 0,
    otherwise all three are real. -/
theorem exp_sub_mul {x M U : EReal} (hx : x ≤ M) (hM : M ≤ U) (hU : U ≠ ⊤) :
    Ideal.exp (x - U) = Ideal.exp (M - U) * Ideal.exp (x - M) ∧ Ideal.exp (x - U) ≠ ⊤ := by
  rcases eq_or_ne x ⊥ with rfl | hb
  · rw [EReal.bot_sub, EReal.bot_sub, Ideal.exp_bot, mul_zero]
    exact ⟨rfl, EReal.zero_ne_top⟩
  · have hMb := ne_bot_of_le_ne_bot hb hx
    lift U to ℝ using ⟨hU, ne_bot_of_le_ne_bot hMb hM⟩
    lift M to ℝ using ⟨ne_top_of_le_ne_top (EReal.coe_ne_top U) hM, hMb⟩
    lift x to ℝ using ⟨ne_top_of_le_ne_top (EReal.coe_ne_top M) hx, hb⟩
    rw [← EReal.coe_sub, ← EReal.coe_sub, ← EReal.coe_sub, Ideal.exp_coe, Ideal.exp_coe, Ideal.exp_coe, ← EReal.coe_mul,
      ← Real.exp_add, sub_add_sub_cancel']
    exact ⟨rfl, EReal.coe_ne_top _⟩

/-- The recurrence for the weighted sum: the old part, taken against the union's maximum, is the old weighted
    sum rescaled; the batch's terms are added. -/
theorem ws_union (P T : Finset ι) (hPT : Disjoint P T) (f v : ι → EReal) (hf : ∀ k, f k ≠ ⊤) :
    ws (P ∪ T) f v = Ideal.exp (mx P f - mx (P ∪ T) f) * ws P f v + ∑ k ∈ T, Ideal.exp (f k - mx (P ∪ T) f) * v k := by
  have hU := mx_ne_top (P ∪ T) hf
  have hle : mx P f ≤ mx (P ∪ T) f := Finset.sup_mono Finset.subset_union_left
  rw [ws, Finset.sum_union hPT, ws, mul_sum (exp_nonneg _) (exp_sub_mul le_rfl hle hU).2]
  exact congrArg (· + _) (Finset.sum_congr rfl fun k hk => by
    rw [(exp_sub_mul (Finset.le_sup hk) hle hU).1, mul_assoc]; rfl)

/-- The recurrence for the sum: the weighted one at the constant value 1. -/
theorem sm_union (P T : Finset ι) (hPT : Disjoint P T) (f : ι → EReal) (hf : ∀ k, f k ≠ ⊤) :
    sm (P ∪ T) f = Ideal.exp (mx P f - mx (P ∪ T) f) * sm P f + ∑ k ∈ T, Ideal.exp (f k - mx (P ∪ T) f) := by
  have h := ws_union P T hPT f (fun _ => 1) hf
  simp only [ws, mul_one] at h
  exact h

/-- Once every key outside S is masked, S's statistics give the softmax combination over all keys: S's maximum is
    the maximum over all keys, a masked key's exponential is 0, and S's sum is a positive real, so dividing by it is
    multiplying by its reciprocal, which distributes over the weighted sum. -/
theorem normalise [Fintype ι] (S : Finset ι) (f v : ι → EReal) (hout : ∀ k, k ∉ S → f k = ⊥)
    (hin : ∃ k ∈ S, f k ≠ ⊥) (hf : ∀ k, f k ≠ ⊤) (hv : ∀ k, v k ≠ ⊤ ∧ v k ≠ ⊥) :
    ws S f v * Ideal.div 1 (sm S f)
      = ∑ k : ι, Ideal.div (Ideal.exp (f k - Finset.univ.sup f)) (∑ k' : ι, Ideal.exp (f k' - Finset.univ.sup f)) * v k := by
  obtain ⟨k0, hk0, hfk0⟩ := hin
  have hM := mx_ne_top S hf
  have huniv : Finset.univ.sup f = mx S f :=
    le_antisymm (Finset.sup_le fun k _ => if hk : k ∈ S then Finset.le_sup hk else (hout k hk).le.trans bot_le)
      (Finset.sup_mono (Finset.subset_univ S))
  have hz : ∀ k, k ∉ S → Ideal.exp (f k - mx S f) = 0 := fun k hk => by rw [hout k hk, EReal.bot_sub, Ideal.exp_bot]
  have hden : ∑ k' : ι, Ideal.exp (f k' - mx S f) = sm S f :=
    (Finset.sum_subset (Finset.subset_univ S) fun k _ hk => hz k hk).symm
  have hsm := real_sum S (fun k => Ideal.exp (f k - mx S f)) fun k hk =>
    ⟨(exp_sub_mul le_rfl (Finset.le_sup hk : f k ≤ mx S f) hM).2, (EReal.bot_lt_zero.trans_le (exp_nonneg _)).ne'⟩
  obtain ⟨d, hd⟩ : ∃ d : ℝ, sm S f = d := ⟨_, (EReal.coe_toReal hsm.1 hsm.2).symm⟩
  obtain ⟨M, hMe⟩ : ∃ M : ℝ, mx S f = M :=
    ⟨_, (EReal.coe_toReal hM (ne_bot_of_le_ne_bot hfk0 (Finset.le_sup hk0 : f k0 ≤ mx S f))).symm⟩
  obtain ⟨a, ha⟩ : ∃ a : ℝ, f k0 = a := ⟨_, (EReal.coe_toReal (hf k0) hfk0).symm⟩
  have hdpos : 0 < d := by
    have h1 : (0 : EReal) < Ideal.exp (f k0 - mx S f) := by
      rw [ha, hMe, ← EReal.coe_sub, Ideal.exp_coe]; exact EReal.coe_pos.mpr (Real.exp_pos _)
    have h2 := h1.trans_le (Finset.single_le_sum (f := fun k => Ideal.exp (f k - mx S f)) (fun k _ => exp_nonneg _) hk0)
    exact EReal.coe_pos.mp (hd ▸ h2)
  rw [huniv, hden, hd, Ideal.div_coe hdpos.ne', one_mul, mul_comm (ws S f v), ws,
    mul_sum (EReal.coe_nonneg.mpr (one_div_pos.mpr hdpos).le) (EReal.coe_ne_top _),
    ← Finset.sum_subset (Finset.subset_univ S) fun k _ hk => by rw [hz k hk, Ideal.div_coe hdpos.ne', zero_mul, zero_mul]]
  exact Finset.sum_congr rfl fun k _ => by rw [Ideal.div_coe hdpos.ne', mul_left_comm, mul_assoc]

end Cert.OnlineSoftmax

end
-- ==== Proof.Fold.lean ====
/- The tile steps folded over the key tiles of one query row give the softmax combination: after key tile j
   the row's statistics are the softmax statistics of the keys through tile j, and the keys past the query's own
   tile come after the query, so they weigh nothing. -/
import proofs.«408594_j31722628448459_3_alg».proof.Proof.Step
import proofs.«408594_j31722628448459_3_alg».proof.Proof.LibOnlineSoftmax

noncomputable section

namespace Cert.Attn

open Idealize.ShloMosaic Cert.OnlineSoftmax

/-- Key tile j of an array of 2048 rows. -/
def tileBlk (q : Fin 2048 → Fin 1024 → EReal) (j : Fin 4) : Fin 512 → Fin 1024 → EReal :=
  fun cc e => q ⟨512 * j.val + cc.val, by omega⟩ e

/-- A query row's statistics after its key tiles 0 … j (j at most the query's own tile qt). -/
def foldTiles (q : Fin 2048 → Fin 1024 → EReal) (qt : Fin 4) (r : Fin 512) : Nat → RowSt
  | 0 => rowStep true (decide (qt.val = 0)) (tileBlk q qt) (tileBlk q ⟨0, by omega⟩) r RowSt.reset
  | j + 1 =>
    if h : j + 1 < 4 then rowStep false (decide (qt.val = j + 1)) (tileBlk q qt) (tileBlk q ⟨j + 1, h⟩) r (foldTiles q qt r j)
    else foldTiles q qt r j

theorem rowStep_init (masked : Bool) (qb kb : Fin 512 → Fin 1024 → EReal) (r : Fin 512) (s s' : RowSt) :
    rowStep true masked qb kb r s = rowStep true masked qb kb r s' := rfl

/-- Every entry a real number. -/
def Finite3 (x : Fin 2 → Fin 2048 → Fin 1024 → EReal) : Prop := ∀ b s d, x b s d ≠ ⊤ ∧ x b s d ≠ ⊥
def Finite2 (w : Fin 1024 → Fin 1024 → EReal) : Prop := ∀ e d, w e d ≠ ⊤ ∧ w e d ≠ ⊥

theorem real_mul {a b : EReal} (ha : a ≠ ⊤ ∧ a ≠ ⊥) (hb : b ≠ ⊤ ∧ b ≠ ⊥) : a * b ≠ ⊤ ∧ a * b ≠ ⊥ := by
  lift a to ℝ using ha
  lift b to ℝ using hb
  exact ⟨EReal.coe_ne_top (a * b), EReal.coe_ne_bot (a * b)⟩

/-- The query row r of query tile qt, as a position. -/
def qrow (qt : Fin 4) (r : Fin 512) : Fin 2048 := ⟨512 * qt.val + r.val, by omega⟩

/-- The keys of tile j, as the image of the tile's 512 offsets. -/
def tileEmb (j : Nat) (hj : j < 4) : Fin 512 ↪ Fin 2048 :=
  ⟨fun cc => ⟨512 * j + cc.val, by omega⟩, fun a c hac => Fin.ext (by have h := congrArg Fin.val hac; simp only at h; omega)⟩

/-- The keys before tile n. -/
def Pn (n : Nat) : Finset (Fin 2048) := Finset.univ.filter (fun k => k.val < 512 * n)

theorem mem_Pn (n : Nat) (k : Fin 2048) : k ∈ Pn n ↔ k.val < 512 * n := by
  simp only [Pn, Finset.mem_filter, Finset.mem_univ, true_and]

theorem Pn_zero : Pn 0 = ∅ := Finset.filter_eq_empty_iff.mpr fun k _ => by omega

theorem Pn_succ (j : Nat) (hj : j < 4) : Pn (j + 1) = Pn j ∪ Finset.univ.map (tileEmb j hj) := by
  ext k
  rw [Finset.mem_union, mem_Pn, mem_Pn, Finset.mem_map]
  constructor
  · intro hk
    by_cases hlt : k.val < 512 * j
    · exact Or.inl hlt
    · exact Or.inr ⟨⟨k.val - 512 * j, by omega⟩, Finset.mem_univ _, Fin.ext (by show 512 * j + (k.val - 512 * j) = k.val; omega)⟩
  · rintro (hk | ⟨cc, _, rfl⟩)
    · omega
    · show 512 * j + cc.val < 512 * (j + 1); omega

theorem Pn_disjoint (j : Nat) (hj : j < 4) : Disjoint (Pn j) (Finset.univ.map (tileEmb j hj)) := by
  rw [Finset.disjoint_left]
  rintro k hk hk'
  obtain ⟨cc, _, rfl⟩ := Finset.mem_map.mp hk'
  have := (mem_Pn _ _).mp hk
  change 512 * j + cc.val < 512 * j at this
  omega

section
variable {ι : Type} [DecidableEq ι] (P : Finset ι) (e : Fin 512 ↪ ι) (f v : ι → EReal)

/-- A tile step on the statistics of the keys P is the statistics of P with the tile's keys. -/
theorem stepM_eq : stepM (mx P f) (fun c => f (e c)) = mx (P ∪ Finset.univ.map e) f :=
  (congrArg (max (mx P f)) (Finset.sup_map Finset.univ e f).symm).trans Finset.sup_union.symm

variable (hPT : Disjoint P (Finset.univ.map e)) (hf : ∀ k, f k ≠ ⊤)
include hPT hf

theorem stepL_eq : stepL (mx P f) (sm P f) (fun c => f (e c)) = sm (P ∪ Finset.univ.map e) f := by
  rw [stepL, stepM_eq, sm_union P _ hPT f hf, Finset.sum_map]

theorem stepA_eq : stepA (mx P f) (ws P f v) (fun c => f (e c)) (fun c => v (e c)) = ws (P ∪ Finset.univ.map e) f v := by
  rw [stepA, stepM_eq, ws_union P _ hPT f v hf, Finset.sum_map]

end

section
variable (x : Fin 2 → Fin 2048 → Fin 1024 → EReal) (Wq : Fin 1024 → Fin 1024 → EReal) (hx : Finite3 x) (hW : Finite2 Wq)
  (b : Fin 2) (qt : Fin 4) (r : Fin 512)

/-- The logit of a key after the query is -∞. -/
theorem logit_of_lt (h : Fin 16) {s k : Fin 2048} (hsk : s.val < k.val) : logit x Wq b h s k = ⊥ := by
  rw [logit, if_pos hsk, Ideal.div_coe (by norm_num : (8 : ℝ) ≠ 0), EReal.bot_mul_coe_of_pos (by norm_num)]

/-- The logit of a key not after the query is the score times 1/8. -/
theorem logit_of_le (h : Fin 16) {s k : Fin 2048} (hsk : ¬ s.val < k.val) :
    logit x Wq b h s k = score x Wq b h s k * ((1 / 8 : ℝ) : EReal) := by
  rw [logit, if_neg hsk, Ideal.div_coe (by norm_num : (8 : ℝ) ≠ 0)]

/-- On key tile j ≤ qt the tile's logits are the row's logits at the tile's keys: before the query's own tile every
    key is at or before the query; on it "offset after the row's" is "key after the query". -/
theorem tileLogit_eq (j : Nat) (hj : j < 4) (hjq : j ≤ qt.val) (h : Fin 16) :
    tileLogit (decide (qt.val = j)) (tileBlk (qp x Wq b) qt) (tileBlk (qp x Wq b) ⟨j, hj⟩) h r
      = fun cc => logit x Wq b h (qrow qt r) (tileEmb j hj cc) := by
  funext cc
  have h18 : ((0.125 : ℝ) : EReal) = ((1 / 8 : ℝ) : EReal) := by norm_num
  have hr := r.isLt
  have hc := cc.isLt
  rw [tileLogit]
  by_cases hm : decide (qt.val = j) = true ∧ r.val < cc.val
  · have hq : qt.val = j := of_decide_eq_true hm.1
    rw [if_pos hm, logit_of_lt x Wq b h (show (qrow qt r).val < (tileEmb j hj cc).val by
      show 512 * qt.val + r.val < 512 * j + cc.val; omega)]
  · have hm' : ¬ (qt.val = j ∧ r.val < cc.val) := fun hh => hm ⟨decide_eq_true hh.1, hh.2⟩
    rw [if_neg hm, logit_of_le x Wq b h (show ¬ (qrow qt r).val < (tileEmb j hj cc).val by
      show ¬ 512 * qt.val + r.val < 512 * j + cc.val; omega), ← h18]
    rfl

include hx hW

theorem qp_finite (s : Fin 2048) (e : Fin 1024) : qp x Wq b s e ≠ ⊤ ∧ qp x Wq b s e ≠ ⊥ :=
  real_sum _ _ fun d _ => real_mul (hx b s d) (hW e d)

/-- A logit is below +∞, and real for a key not after the query. -/
theorem logit_real (h : Fin 16) (s k : Fin 2048) :
    logit x Wq b h s k ≠ ⊤ ∧ (¬ s.val < k.val → logit x Wq b h s k ≠ ⊥) := by
  have hs : score x Wq b h s k * ((1 / 8 : ℝ) : EReal) ≠ ⊤ ∧ score x Wq b h s k * ((1 / 8 : ℝ) : EReal) ≠ ⊥ :=
    real_mul (real_sum _ _ fun d _ => real_mul (qp_finite x Wq hx hW b s (col h d)) (qp_finite x Wq hx hW b k (col h d)))
      ⟨EReal.coe_ne_top _, EReal.coe_ne_bot _⟩
  by_cases hsk : s.val < k.val
  · exact ⟨by rw [logit_of_lt x Wq b h hsk]; exact bot_ne_top, fun h' => absurd hsk h'⟩
  · rw [logit_of_le x Wq b h hsk]; exact ⟨hs.1, fun _ => hs.2⟩

/-- The row's statistics are those of the keys before tile n; with nrm set the accumulator is the normalised one. -/
def Stats (n : Nat) (nrm : Bool) (st : RowSt) : Prop :=
  (∀ h, st.m h = mx (Pn n) (logit x Wq b h (qrow qt r))) ∧
  (∀ h, st.l h = sm (Pn n) (logit x Wq b h (qrow qt r))) ∧
  ∀ e, st.a e = (bif nrm then (finA · (sm (Pn n) (logit x Wq b (headOf e) (qrow qt r)))) else id)
    (ws (Pn n) (logit x Wq b (headOf e) (qrow qt r)) fun k => qp x Wq b k e)

omit hx hW in
theorem stats_reset : Stats x Wq b qt r 0 false RowSt.reset := by
  unfold Stats
  rw [Pn_zero]
  exact ⟨fun _ => rfl, fun _ => rfl, fun _ => rfl⟩

/-- A step on key tile j ≤ qt takes the statistics of the keys before tile j to those of the keys through it,
    normalising the accumulator on the query's own tile. -/
theorem rowStep_stats (j : Nat) (hj : j < 4) (hjq : j ≤ qt.val) (st : RowSt) (hs : Stats x Wq b qt r j false st) :
    Stats x Wq b qt r (j + 1) (decide (qt.val = j))
      (rowStep false (decide (qt.val = j)) (tileBlk (qp x Wq b) qt) (tileBlk (qp x Wq b) ⟨j, hj⟩) r st) := by
  obtain ⟨hm, hl, ha⟩ := hs
  have hf : ∀ h k, logit x Wq b h (qrow qt r) k ≠ ⊤ := fun h k => (logit_real x Wq hx hW b h _ k).1
  have hT := tileLogit_eq x Wq b qt r j hj hjq
  have hM : ∀ h, stepM (st.m h) (tileLogit (decide (qt.val = j)) (tileBlk (qp x Wq b) qt) (tileBlk (qp x Wq b) ⟨j, hj⟩) h r)
      = mx (Pn (j + 1)) (logit x Wq b h (qrow qt r)) := fun h => by
    rw [hm h, hT h, Pn_succ j hj]
    exact stepM_eq (Pn j) (tileEmb j hj) _
  have hL : ∀ h, stepL (st.m h) (st.l h)
      (tileLogit (decide (qt.val = j)) (tileBlk (qp x Wq b) qt) (tileBlk (qp x Wq b) ⟨j, hj⟩) h r)
      = sm (Pn (j + 1)) (logit x Wq b h (qrow qt r)) := fun h => by
    rw [hm h, hl h, hT h, Pn_succ j hj]
    exact stepL_eq (Pn j) (tileEmb j hj) _ (Pn_disjoint j hj) (hf h)
  have hA : ∀ e, stepA (st.m (headOf e)) (st.a e)
      (tileLogit (decide (qt.val = j)) (tileBlk (qp x Wq b) qt) (tileBlk (qp x Wq b) ⟨j, hj⟩) (headOf e) r)
      (fun cc => tileBlk (qp x Wq b) ⟨j, hj⟩ cc e)
      = ws (Pn (j + 1)) (logit x Wq b (headOf e) (qrow qt r)) fun k => qp x Wq b k e := fun e => by
    rw [hm (headOf e), ha e, hT (headOf e), Pn_succ j hj]
    exact stepA_eq (Pn j) (tileEmb j hj) _ (fun k => qp x Wq b k e) (Pn_disjoint j hj) (hf _)
  refine ⟨hM, hL, fun e => ?_⟩
  cases hd : decide (qt.val = j) <;> rw [hd] at hA hL
  · exact hA e
  · exact congrArg₂ finA (hA e) (hL (headOf e))

/-- After key tile j ≤ qt the statistics are those of the keys through tile j. -/
theorem fold_stats (j : Nat) (hjq : j ≤ qt.val) :
    Stats x Wq b qt r (j + 1) (decide (qt.val = j)) (foldTiles (qp x Wq b) qt r j) := by
  have hq := qt.isLt
  induction j with
  | zero => exact rowStep_stats x Wq hx hW b qt r 0 (by omega) hjq RowSt.reset (stats_reset x Wq b qt r)
  | succ j ih =>
    have h4 : j + 1 < 4 := by omega
    have h := ih (by omega)
    rw [decide_eq_false (by omega : ¬ qt.val = j)] at h
    rw [foldTiles, dif_pos h4]
    exact rowStep_stats x Wq hx hW b qt r (j + 1) h4 hjq _ h

/-- After the query's own tile the accumulator is the context row: the keys past that tile are after the query. -/
theorem fold_final (e : Fin 1024) :
    (foldTiles (qp x Wq b) qt r qt.val).a e = ctx x Wq b ⟨512 * qt.val + r.val, by omega⟩ e := by
  have hr := r.isLt
  have h := (fold_stats x Wq hx hW b qt r qt.val le_rfl).2.2 e
  rw [decide_eq_true (rfl : qt.val = qt.val)] at h
  rw [h]
  exact normalise (Pn (qt.val + 1)) (logit x Wq b (headOf e) (qrow qt r)) (fun k => qp x Wq b k e)
    (fun k hk => logit_of_lt x Wq b (headOf e) (by
      rw [mem_Pn] at hk
      show 512 * qt.val + r.val < k.val
      omega))
    ⟨qrow qt r, (mem_Pn _ _).mpr (by show 512 * qt.val + r.val < _; omega),
      (logit_real x Wq hx hW b (headOf e) _ _).2 (lt_irrefl _)⟩
    (fun k => (logit_real x Wq hx hW b (headOf e) _ k).1) (fun k => qp_finite x Wq hx hW b k e)

end

end Cert.Attn

end
-- ==== Proof.KI1Value.lean ====
/- The attention call's output array is the specification's result: after each grid point a query row's running
   statistics are the fold of the tile steps over its key tiles so far, and the finishing points' tiles cover the array. -/
import proofs.«408594_j31722628448459_3_alg».proof.Proof.KI1ValDefs
import proofs.«408594_j31722628448459_3_alg».proof.Proof.Fold
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Cert.Attn Idealize.ShloMosaic.ValueIdx

/-- The ten pairs (query tile, key tile) with key tile ≤ query tile, in the order they are worked on. -/
def qtTab : Fin 10 → Fin 4 := ![0, 1, 1, 2, 2, 2, 3, 3, 3, 3]
def kvTab : Fin 10 → Fin 4 := ![0, 0, 1, 0, 1, 2, 0, 1, 2, 3]

/-- Point t works on batch t / 10 and on pair t mod 10. -/
def bOf (t : Fin cfgL.N) : Fin 2 := ⟨t.val / 10, by have := lt_of_lt_of_eq t.isLt N_L; omega⟩
def qtOf (t : Fin cfgL.N) : Fin 4 := qtTab ⟨t.val % 10, Nat.mod_lt _ (by decide)⟩
def kvOf (t : Fin cfgL.N) : Fin 4 := kvTab ⟨t.val % 10, Nat.mod_lt _ (by decide)⟩

/-- A point resets exactly at key tile 0 and finishes exactly where the key tile is the query tile. -/
theorem sched : ∀ t : Fin cfgL.N, (isInit (0 : Dev nD) t ↔ (kvOf t).val = 0) ∧ (isDiag (0 : Dev nD) t ↔ (qtOf t).val = (kvOf t).val)
    ∧ ((cfgL.win 4).flush t = true ↔ (qtOf t).val = (kvOf t).val) := by decide +kernel
/-- Unless it resets, a point has its predecessor's batch and query tile and the key tile after its predecessor's. -/
theorem succ_facts : ∀ (t : Fin cfgL.N) (h : t.val + 1 < cfgL.N), (kvOf ⟨t.val + 1, h⟩).val ≠ 0 →
    bOf ⟨t.val + 1, h⟩ = bOf t ∧ qtOf ⟨t.val + 1, h⟩ = qtOf t ∧ (kvOf ⟨t.val + 1, h⟩).val = (kvOf t).val + 1 := by
  decide +kernel
/-- Which tile of each array a point works on. -/
theorem idx_all : ∀ t : Fin cfgL.N, (cfgL.win 0).index t = ![(bOf t).val, (qtOf t).val, 0] ∧ (cfgL.win 1).index t = ![(bOf t).val, (kvOf t).val, 0]
    ∧ (∀ a, (cfgL.win 2).index t a = 0) ∧ (∀ a, (cfgL.win 3).index t a = 0) ∧ (cfgL.win 4).index t = ![(bOf t).val, (qtOf t).val, 0] := by
  decide +kernel
/-- Each batch and query tile is finished by some point. -/
theorem diag_onto : ∀ (b : Fin 2) (q : Fin 4), ∃ t : Fin cfgL.N, (qtOf t).val = (kvOf t).val ∧ bOf t = b ∧ qtOf t = q := by
  decide +kernel

/-- Where an element of a one-batch, one-tile block sits in the array, from the block's index. -/
theorem emb3 (f : S1x512x1024.Idx → S2x2048x1024.Idx) (i : Fin 3 → ℕ) (b : Fin 2) (j : Fin 4)
    (hf : ∀ y a, (f y a).val = i a * S1x512x1024.size a + (y a).val) (hi : i = ![b.val, j.val, 0]) (r : Fin 512) (e : Fin 1024) :
    f (ix3 (0 : Fin 1) r e) = ix3 b (qrow j r) e := by
  subst hi
  funext a; apply Fin.ext; rw [hf]
  match a with
  | ⟨0, _⟩ => show b.val * 1 + 0 = b.val; omega
  | ⟨1, _⟩ => show j.val * 512 + r.val = 512 * j.val + r.val; omega
  | ⟨2, _⟩ => show 0 * 1024 + e.val = e.val; omega

section Value

variable (V : (c : Dev nD) → (b : Ref sig .tc) → Buf (Elt Ideal) ((c : Thread nD τ).loc b))

variable (x : Fin 2 → Fin 2048 → Fin 1024 → EReal) (Wq Wo : Fin 1024 → Fin 1024 → EReal) (bo : Fin 1024 → EReal)
  (hx : Finite3 x) (hW : Finite2 Wq)
  (h2 : ∀ b s e, V 0 main_v2 (ix3 b s e) = qp x Wq b s e) (h3 : ∀ e d, V 0 main_v3 (ix2 e d) = Wo e d)
  (h4 : ∀ e, V 0 main_v4 (ix2 (0 : Fin 1) e) = bo e)
  (hS : ∀ t s r, rowOf (stepSt V 0 t s) r
    = rowStep (decide (isInit (0 : Dev nD) t)) (decide (isDiag (0 : Dev nD) t)) (qblk V 0 t) (kblk V 0 t) r (rowOf s r))
  (hOut : ∀ t, isDiag (0 : Dev nD) t → ∀ r e, outAt V 0 t (ix3 (0 : Fin 1) r e)
    = outE (fun d => (stepSt V 0 t (stAt V 0 t.val)).2.2 (ix2 r d)) (woblk V 0 t) (boblk V 0 t) e)

include h2 in
theorem qblk_eq (t : Fin cfgL.N) : qblk V 0 t = tileBlk (qp x Wq (bOf t)) (qtOf t) :=
  funext fun r => funext fun e => (congrArg (V 0 main_v2) (emb3 _ _ _ _ ((cfgL.win 0).rect_emb_val t) (idx_all t).1 r e)).trans (h2 _ _ _)

include h2 in
theorem kblk_eq (t : Fin cfgL.N) : kblk V 0 t = tileBlk (qp x Wq (bOf t)) (kvOf t) :=
  funext fun r => funext fun e => (congrArg (V 0 main_v2) (emb3 _ _ _ _ ((cfgL.win 1).rect_emb_val t) (idx_all t).2.1 r e)).trans (h2 _ _ _)

include h3 in
theorem woblk_eq (t : Fin cfgL.N) : woblk V 0 t = Wo :=
  funext fun e => funext fun d => (congrArg (V 0 main_v3)
    (funext fun a => Fin.ext ((cfgL.win 2).rect_emb_val_of_index_zero t a ((idx_all t).2.2.1 a) _))).trans (h3 e d)

include h4 in
theorem boblk_eq (t : Fin cfgL.N) : boblk V 0 t = bo :=
  funext fun e => (congrArg (V 0 main_v4)
    (funext fun a => Fin.ext ((cfgL.win 3).rect_emb_val_of_index_zero t a ((idx_all t).2.2.2.1 a) _))).trans (h4 e)

/-- One step from the fold over the key tiles before kv is the fold up to kv. -/
theorem fold_step (q : Fin 2048 → Fin 1024 → EReal) (qt : Fin 4) (r : Fin 512) : ∀ (kv : Fin 4) (s : RowSt),
    (∀ j, kv.val = j + 1 → s = foldTiles q qt r j) →
    rowStep (decide (kv.val = 0)) (decide (qt.val = kv.val)) (tileBlk q qt) (tileBlk q kv) r s = foldTiles q qt r kv.val
  | ⟨0, _⟩, _, _ => rfl
  | ⟨j + 1, h⟩, s, hs => by rw [hs j rfl, foldTiles, dif_pos h]; rfl

include h2 hS in
/-- A point starts a row's fold or takes it one key tile further. -/
theorem stat_step (t : Fin cfgL.N) (r : Fin 512)
    (ih : ∀ j, (kvOf t).val = j + 1 → rowOf (stAt V 0 t.val) r = foldTiles (qp x Wq (bOf t)) (qtOf t) r j) :
    rowOf (stAt V 0 (t.val + 1)) r = foldTiles (qp x Wq (bOf t)) (qtOf t) r (kvOf t).val := by
  rw [stAt_succ, hS, decide_eq_decide.mpr (sched t).1, decide_eq_decide.mpr (sched t).2.1, qblk_eq V x Wq h2 t, kblk_eq V x Wq h2 t]
  exact fold_step _ _ r _ _ ih

include h2 hS in
/-- By induction on the points: after point n each row's statistics are the fold over its key tiles so far. -/
theorem stat_at : ∀ (n : Nat) (h : n < cfgL.N) (r : Fin 512),
    rowOf (stAt V 0 (n + 1)) r = foldTiles (qp x Wq (bOf ⟨n, h⟩)) (qtOf ⟨n, h⟩) r (kvOf ⟨n, h⟩).val
  | 0, h, r => stat_step V x Wq h2 hS ⟨0, h⟩ r fun j hj => absurd hj (Nat.succ_ne_zero j).symm
  | n + 1, h, r => stat_step V x Wq h2 hS ⟨n + 1, h⟩ r fun j hj => by
    obtain ⟨fb, fq, fk⟩ := succ_facts ⟨n, by omega⟩ h fun e => Nat.succ_ne_zero j (hj.symm.trans e)
    have e := stat_at n (by omega) r
    rw [← fb, ← fq, show (kvOf ⟨n, by omega⟩).val = j from Nat.succ.inj (fk.symm.trans hj)] at e
    exact e

include hx hW h2 h3 h4 hS hOut in
/-- At a finishing point the fold is complete, so the stored rows are rows of the result. -/
theorem out_at (t : Fin cfgL.N) (hD : isDiag (0 : Dev nD) t) (r : Fin 512) (e : Fin 1024) :
    outAt V 0 t (ix3 (0 : Fin 1) r e) = result x Wq Wo bo (bOf t) (qrow (qtOf t) r) e := by
  have key : (fun d => (stepSt V 0 t (stAt V 0 t.val)).2.2 (ix2 r d)) = ctx x Wq (bOf t) (qrow (qtOf t) r) := funext fun d => by
    rw [← stAt_succ]
    refine (congrArg (·.a d) (stat_at V x Wq h2 hS t.val t.isLt r)).trans ?_
    rw [← (sched t).2.1.mp hD]
    exact fold_final x Wq hx hW (bOf t) (qtOf t) r d
  rw [hOut t hD r e, woblk_eq V Wo h3 t, boblk_eq V bo h4 t, key]
  rfl

theorem emb4 (t : Fin cfgL.N) (r : Fin 512) (e : Fin 1024) :
    ((cfgL.win 4).blk t).view.emb (ix3 (0 : Fin 1) r e) = ix3 (bOf t) (qrow (qtOf t) r) e :=
  emb3 _ _ _ _ ((cfgL.win 4).rect_emb_val t) (idx_all t).2.2.2.2 r e

include hx hW h2 h3 h4 hS hOut in
/-- The finishing points' tiles cover the output array, so after the run it is the result. -/
theorem arr_final : (dat1 V 0).arrAt 4 cfgL.N = fun i => result x Wq Wo bo (i 0) (i 1) (i 2) := by
  refine (dat1 V 0).arrAt_eq_of_cover 4 _ (fun t hf => ?_) fun i => ?_
  · show (cfgL.win 4).cut (cfgL.grid.coords t) ((dat1 V 0).after 4 t) = _
    rw [after1_4]
    funext j
    obtain ⟨z, r, e, rfl⟩ : ∃ (z : Fin 1) (r : Fin 512) (e : Fin 1024), j = ix3 z r e := ⟨j 0, j 1, j 2, eq_ix3 j⟩
    obtain rfl : z = 0 := Subsingleton.elim _ _
    show outAt V 0 t (ix3 (0 : Fin 1) r e)
      = (fun i : S2x2048x1024.Idx => result x Wq Wo bo (i 0) (i 1) (i 2)) (((cfgL.win 4).blk t).view.emb (ix3 (0 : Fin 1) r e))
    rw [emb4, out_at V x Wq Wo bo hx hW h2 h3 h4 hS hOut t ((sched t).2.1.mpr ((sched t).2.2.mp hf))]
  · obtain ⟨b, s, e, rfl⟩ : ∃ (b : Fin 2) (s : Fin 2048) (e : Fin 1024), i = ix3 b s e := ⟨i 0, i 1, i 2, eq_ix3 i⟩
    obtain ⟨t, hkq, rfl, hq⟩ := diag_onto b ⟨s.val / 512, by have := s.isLt; omega⟩
    refine ⟨t, (sched t).2.2.mpr hkq, ?_⟩
    rw [show ix3 (bOf t) s e = ((cfgL.win 4).blk t).view.emb (ix3 (0 : Fin 1) ⟨s.val % 512, Nat.mod_lt _ (by decide)⟩ e) by
      rw [emb4, hq]; exact congrArg (ix3 _ · e) (Fin.ext (Nat.div_add_mod _ 512).symm)]
    exact View.emb_mem_set _ _

end Value

end Cert.KernelIdeal.Hand

end
-- ==== Proof.KI1ValHead.lean ====
/- One head's step of the masked online-softmax update as functions of the query and key tiles, read at a row; and how
   sixteen heads' stores, one after another, leave the update and then the normalised sums in the running maximum, denominator and accumulator. -/
import proofs.«408594_j31722628448459_3_alg».proof.Proof.KI1ValDefs
import Idealize.ShloMosaic.PureOps.IdealRules
import Idealize.ShloMosaic.PureOps.Ideal.Laws
import Idealize.ShloMosaic.Lib.Pipeline.Value
import Idealize.ShloMosaic.Lib.ValueIdx
import Idealize.ShloMosaic.Lib.ValueLayout
import Idealize.ShloMosaic.Lib.WordArith

noncomputable section

namespace Cert.KernelIdeal.Hand

open Cert.KernelIdeal Cert.KernelIdeal.Gen Cert.Attn
open Idealize.ShloMosaic Idealize.ShloMosaic.TcCoe Idealize.ShloMosaic.ValueIdx

local notation "FF" => Idealize.ShloMosaic.Ideal

section Head
variable (o : Fin S512x1024.rank → ℕ) (hs : S512x1024.Slices o S512x64) (q k : FVec FF S512x1024 .bf16)

def hdK : FVec FF S512x64 .bf16 := extractStridedSlice S512x64 o k hs

def hdS : FVec FF S512x512 .f32 :=
  select k1_pay148
    (mulf (matmul dot_S512x64_S512x64_S512x512_1_1_0_0_n_n none (extractStridedSlice S512x64 o q hs) (hdK o hs k)
        (constant S512x512 .f32 0x00000000#32)) (broadcast S512x512 (Scalar.ofBits .f32 0x3E000000#32)))
    (broadcast S512x512 (Named.named κ "neg_big" 0xF149F2CA#32))

def hdM (m0 : Vec FF S512x1 .f32) : FVec FF S512x1 .f32 :=
  maximumf m0 (shapeCast S512x1 (multiReduction .maximumf [1] S512 (hdS o hs q k) 0xFF800000#32 reduces_S512x512_S512 (.inl rfl) rfl)
    shapeCasts_S512_S512x1)

def hdAl (m0 : Vec FF S512x1 .f32) : FVec FF S512x1 .f32 := exp (subf m0 (hdM o hs q k m0))

def hdP (m0 : Vec FF S512x1 .f32) : FVec FF S512x512 .f32 :=
  exp (subf (hdS o hs q k) (broadcastTo S512x512 (hdM o hs q k m0) broadcasts_S512x1_S512x512))

def hdMst (m0 : Vec FF S512x1 .f32) : FVec FF S512x1 .f32 := shapeCast S512x1 (hdM o hs q k m0) shapeCasts_S512x1_S512x1
def hdLst (m0 l0 : Vec FF S512x1 .f32) : FVec FF S512x1 .f32 :=
  shapeCast S512x1
    (addf (mulf (hdAl o hs q k m0) l0)
      (shapeCast S512x1 (multiReduction .add [1] S512 (hdP o hs q k m0) 0x00000000#32 reduces_S512x512_S512 (.inl rfl) rfl)
        shapeCasts_S512_S512x1)) shapeCasts_S512x1_S512x1
def hdAst (m0 : Vec FF S512x1 .f32) (a0 : Vec FF S512x64 .f32) : FVec FF S512x64 .f32 :=
  shapeCast S512x64
    (addf (mulf (broadcastTo S512x64 (hdAl o hs q k m0) broadcasts_S512x1_S512x64) a0)
      (matmul dot_S512x512_S512x64_S512x64_1_0_0_1_n_n none (truncf .bf16 (hdP o hs q k m0) bitsLt_bf16_f32) (hdK o hs k)
        (constant S512x64 .f32 0x00000000#32))) shapeCasts_S512x64_S512x64

end Head

theorem lit_eighth : (Scalar.ofBits .f32 0x3E000000#32 : FF .f32) = ((0.125 : ℝ) : EReal) := by
  show Ideal.ofBits .f32 0x3E000000#32 = _
  simp [Ideal.ofBits, Ideal.ieee, -EReal.coe_mul]; norm_num
theorem lit_negInf : (FloatOps.ofBits .f32 0xFF800000#32 : FF .f32) = (⊥ : EReal) := by
  show Ideal.ofBits .f32 0xFF800000#32 = _
  simp [Ideal.ofBits, Ideal.ieee]
theorem lit_one : (FloatOps.ofBits .f32 0x3F800000#32 : FF .f32) = (1 : EReal) := by
  show Ideal.ofBits .f32 0x3F800000#32 = _
  simp [Ideal.ofBits, Ideal.ieee, -EReal.coe_mul]; norm_num
theorem lit_fill : (Named.named (F := FF) κ "neg_big" (φ := .f32) 0xF149F2CA#32) = (⊥ : EReal) :=
  IdealRules.named_const.ideal_named_scalar _ _ _ _ rfl

/-- The diagonal tile's mask: column at most row, both below 2^31. -/
theorem mask_apply (r cc : Fin 512) : k1_pay148 (ix2 r cc) = 1#1 ↔ cc.val ≤ r.val := by
  unfold k1_pay148
  show IntOp.cmpi .sle (iota .tc S512x512 32 [1] iota_S512x512_d1_w32 (ix2 r cc)) (iota .tc S512x512 32 [0] iota_S512x512_d0_w32 (ix2 r cc)) = 1#1 ↔ _
  rw [iota_single_apply, iota_single_apply, IntOp.cmpi_sle]
  show (BitVec.ofNat 32 cc.val).toInt ≤ (BitVec.ofNat 32 r.val).toInt ↔ _
  rw [WordArith.toInt_ofNat_small _ (by omega), WordArith.toInt_ofNat_small _ (by omega)]
  omega

/-- A product into zero that contracts one axis of extent n, read where its operand indices are named. -/
theorem mat1_apply {sl sr so : Shape} {φ₁ φ₂ : FTy} (D : DotDims sl sr so) (n : ℕ) (h1 : D.contr.rank = 1) (hn : D.contr.size ⟨0, by omega⟩ = n)
    (a : FVec FF sl φ₁) (b : FVec FF sr φ₂) (j : so.Idx) (il : Fin n → sl.Idx) (ir : Fin n → sr.Idx)
    (hl : ∀ d, D.lhsIdx j ((contrEquiv1 D n h1 hn).symm d) = il d) (hr : ∀ d, D.rhsIdx j ((contrEquiv1 D n h1 hn).symm d) = ir d) :
    matmul D none a b (constant so .f32 0x00000000#32) j = ∑ d, a (il d) * b (ir d) := by
  simp only [matmul]
  rw [Ideal.matmul_constant_zero_apply, ← Equiv.sum_comp (contrEquiv1 D n h1 hn).symm]
  exact Finset.sum_congr rfl fun d _ => by rw [hl, hr]

theorem lhsS_0 (i : S512x512.Idx) (p : dot_S512x64_S512x64_S512x512_1_1_0_0_n_n.contr.Idx) : (dot_S512x64_S512x64_S512x512_1_1_0_0_n_n.lhsIdx i p 0).val = (i 0).val := rfl
theorem lhsS_1 (i : S512x512.Idx) (p : dot_S512x64_S512x64_S512x512_1_1_0_0_n_n.contr.Idx) : (dot_S512x64_S512x64_S512x512_1_1_0_0_n_n.lhsIdx i p 1).val = (p ⟨0, by decide⟩).val := rfl
theorem rhsS_0 (i : S512x512.Idx) (p : dot_S512x64_S512x64_S512x512_1_1_0_0_n_n.contr.Idx) : (dot_S512x64_S512x64_S512x512_1_1_0_0_n_n.rhsIdx i p 0).val = (i 1).val := rfl
theorem rhsS_1 (i : S512x512.Idx) (p : dot_S512x64_S512x64_S512x512_1_1_0_0_n_n.contr.Idx) : (dot_S512x64_S512x64_S512x512_1_1_0_0_n_n.rhsIdx i p 1).val = (p ⟨0, by decide⟩).val := rfl

theorem matS_apply (a b : FVec FF S512x64 .bf16) (r cc : Fin 512) :
    matmul dot_S512x64_S512x64_S512x512_1_1_0_0_n_n none a b (constant S512x512 .f32 0x00000000#32) (ix2 r cc)
      = ∑ d : Fin 64, a (ix2 r d) * b (ix2 cc d) :=
  mat1_apply _ 64 rfl rfl a b _ _ _ (fun _ => Shape.idx_ext₂ rfl rfl) fun _ => Shape.idx_ext₂ rfl rfl

theorem lhsA_0 (i : S512x64.Idx) (p : dot_S512x512_S512x64_S512x64_1_0_0_1_n_n.contr.Idx) : (dot_S512x512_S512x64_S512x64_1_0_0_1_n_n.lhsIdx i p 0).val = (i 0).val := rfl
theorem lhsA_1 (i : S512x64.Idx) (p : dot_S512x512_S512x64_S512x64_1_0_0_1_n_n.contr.Idx) : (dot_S512x512_S512x64_S512x64_1_0_0_1_n_n.lhsIdx i p 1).val = (p ⟨0, by decide⟩).val := rfl
theorem rhsA_0 (i : S512x64.Idx) (p : dot_S512x512_S512x64_S512x64_1_0_0_1_n_n.contr.Idx) : (dot_S512x512_S512x64_S512x64_1_0_0_1_n_n.rhsIdx i p 0).val = (p ⟨0, by decide⟩).val := rfl
theorem rhsA_1 (i : S512x64.Idx) (p : dot_S512x512_S512x64_S512x64_1_0_0_1_n_n.contr.Idx) : (dot_S512x512_S512x64_S512x64_1_0_0_1_n_n.rhsIdx i p 1).val = (i 1).val := rfl

theorem matA_apply (a : FVec FF S512x512 .bf16) (b : FVec FF S512x64 .bf16) (r : Fin 512) (d : Fin 64) :
    matmul dot_S512x512_S512x64_S512x64_1_0_0_1_n_n none a b (constant S512x64 .f32 0x00000000#32) (ix2 r d)
      = ∑ cc : Fin 512, a (ix2 r cc) * b (ix2 cc d) :=
  mat1_apply _ 512 rfl rfl a b _ _ _ (fun _ => Shape.idx_ext₂ rfl rfl) fun _ => Shape.idx_ext₂ rfl rfl

theorem lhsO_0 (i : S512x1024.Idx) (p : dot_S512x1024_S1024x1024_S512x1024_1_1_0_0_n_n.contr.Idx) : (dot_S512x1024_S1024x1024_S512x1024_1_1_0_0_n_n.lhsIdx i p 0).val = (i 0).val := rfl
theorem lhsO_1 (i : S512x1024.Idx) (p : dot_S512x1024_S1024x1024_S512x1024_1_1_0_0_n_n.contr.Idx) : (dot_S512x1024_S1024x1024_S512x1024_1_1_0_0_n_n.lhsIdx i p 1).val = (p ⟨0, by decide⟩).val := rfl
theorem rhsO_0 (i : S512x1024.Idx) (p : dot_S512x1024_S1024x1024_S512x1024_1_1_0_0_n_n.contr.Idx) : (dot_S512x1024_S1024x1024_S512x1024_1_1_0_0_n_n.rhsIdx i p 0).val = (i 1).val := rfl
theorem rhsO_1 (i : S512x1024.Idx) (p : dot_S512x1024_S1024x1024_S512x1024_1_1_0_0_n_n.contr.Idx) : (dot_S512x1024_S1024x1024_S512x1024_1_1_0_0_n_n.rhsIdx i p 1).val = (p ⟨0, by decide⟩).val := rfl

theorem matO_apply (a : FVec FF S512x1024 .bf16) (b : FVec FF S1024x1024 .bf16) (r : Fin 512) (e : Fin 1024) :
    matmul dot_S512x1024_S1024x1024_S512x1024_1_1_0_0_n_n none a b (constant S512x1024 .f32 0x00000000#32) (ix2 r e)
      = ∑ d : Fin 1024, a (ix2 r d) * b (ix2 e d) :=
  mat1_apply _ 1024 rfl rfl a b _ _ _ (fun _ => Shape.idx_ext₂ rfl rfl) fun _ => Shape.idx_ext₂ rfl rfl

theorem castCol_apply {α : Type} (x : S512.Idx → α) (r : Fin 512) :
    shapeCast S512x1 x shapeCasts_S512_S512x1 (ix2 r (0 : Fin 1)) = x (ValueIdx.ix1 r) :=
  shapeCast_apply x shapeCasts_S512_S512x1 (ix2 r (0 : Fin 1)) (ValueIdx.ix1 r) (by
    rw [Shape.rowMajor_val_one, Shape.rowMajor_val_two]
    show r.val = r.val * 1 + 0
    omega)

theorem spread512_apply {α : Type} (x : S512x1.Idx → α) (r cc : Fin 512) :
    broadcastTo S512x512 x broadcasts_S512x1_S512x512 (ix2 r cc) = x (ix2 r (0 : Fin 1)) :=
  broadcastTo_apply x _ _ _ fun | ⟨0, _⟩ => rfl | ⟨1, _⟩ => rfl
theorem spread64_apply {α : Type} (x : S512x1.Idx → α) (r : Fin 512) (d : Fin 64) :
    broadcastTo S512x64 x broadcasts_S512x1_S512x64 (ix2 r d) = x (ix2 r (0 : Fin 1)) :=
  broadcastTo_apply x _ _ _ fun | ⟨0, _⟩ => rfl | ⟨1, _⟩ => rfl

theorem lift_row (r cc : Fin 512) : reduces_S512x512_S512.lift (ValueIdx.ix1 r) cc = ix2 r cc :=
  Shape.idx_ext₂ rfl rfl

theorem rowMax_apply (x : FVec FF S512x512 .f32) (r : Fin 512) :
    multiReduction .maximumf [1] S512 x 0xFF800000#32 reduces_S512x512_S512 (.inl rfl) rfl (ValueIdx.ix1 r)
      = Finset.univ.sup fun cc : Fin 512 => x (ix2 r cc) := by
  refine (Ideal.multiReduction_maximumf_single x 0xFF800000#32 _ _ rfl _).trans ?_
  rw [lit_negInf, show x ∘ reduces_S512x512_S512.lift (ValueIdx.ix1 r) = fun cc => x (ix2 r cc) from
    funext fun cc => congrArg x (lift_row r cc)]
  rfl

theorem rowSum_apply (x : FVec FF S512x512 .f32) (r : Fin 512) :
    multiReduction .add [1] S512 x 0x00000000#32 reduces_S512x512_S512 (.inl rfl) rfl (ValueIdx.ix1 r)
      = ∑ cc : Fin 512, x (ix2 r cc) :=
  (Ideal.multiReduction_add_single x _ _ _ rfl _).trans (Finset.sum_congr rfl fun cc _ => congrArg x (lift_row r cc))

section HeadIdx
variable (o : Fin S512x1024.rank → ℕ) (hs : S512x1024.Slices o S512x64) (q k : FVec FF S512x1024 .bf16)
variable (h : Fin 16) (ho0 : o 0 = 0) (ho1 : o 1 = 64 * h.val)
include ho0 ho1

theorem slice_apply (x : FVec FF S512x1024 .bf16) (r : Fin 512) (d : Fin 64) :
    extractStridedSlice S512x64 o x hs (ix2 r d) = x (ix2 r (col h d)) := by
  refine extractStridedSlice_apply o x hs (ix2 r d) (ix2 r (col h d)) (fun a => ?_)
  match a with
  | ⟨0, _⟩ => show r.val = o 0 + r.val; rw [ho0, Nat.zero_add]
  | ⟨1, _⟩ => show 64 * h.val + d.val = o 1 + d.val; rw [ho1]

theorem hdS_apply (r cc : Fin 512) :
    hdS o hs q k (ix2 r cc) = tileLogit true (fun r e => q (ix2 r e)) (fun r e => k (ix2 r e)) h r cc := by
  unfold hdS hdK tileLogit
  rw [select_apply, mulf_apply, broadcast_apply, broadcast_apply, lit_eighth, lit_fill, matS_apply]
  have hsum : (∑ d : Fin 64, extractStridedSlice S512x64 o q hs (ix2 r d) * extractStridedSlice S512x64 o k hs (ix2 cc d))
      = ∑ d : Fin 64, q (ix2 r (col h d)) * k (ix2 cc (col h d)) :=
    Finset.sum_congr rfl fun d _ => by rw [slice_apply o hs h ho0 ho1, slice_apply o hs h ho0 ho1]
  rw [hsum]
  by_cases hm : r.val < cc.val
  · have hz : k1_pay148 (ix2 r cc) = 0#1 := eq_zero_of_ne_one (fun h1 => by have := (mask_apply r cc).mp h1; omega)
    rw [hz, select_zero, if_pos ⟨rfl, hm⟩]
  · have h1 : k1_pay148 (ix2 r cc) = 1#1 := (mask_apply r cc).mpr (by omega)
    rw [h1, select_one, if_neg (fun hh => hm hh.2)]

end HeadIdx

section HeadLg
variable (o : Fin S512x1024.rank → ℕ) (hs : S512x1024.Slices o S512x64) (q k : FVec FF S512x1024 .bf16)
  (lg : Fin 512 → Fin 512 → EReal) (hlg : ∀ r cc, hdS o hs q k (ix2 r cc) = lg r cc)
  (m0 l0 : Vec FF S512x1 .f32) (r : Fin 512)
include hlg

theorem hdM_apply : hdM o hs q k m0 (ix2 r (0 : Fin 1)) = stepM (m0 (ix2 r (0 : Fin 1))) (lg r) := by
  unfold hdM stepM
  rw [maximumf_apply, castCol_apply, rowMax_apply]
  exact congrArg (max _) (congrArg Finset.univ.sup (funext (hlg r)))

theorem hdMst_apply : hdMst o hs q k m0 (ix2 r (0 : Fin 1)) = stepM (m0 (ix2 r (0 : Fin 1))) (lg r) := by
  unfold hdMst
  rw [shapeCast_self]
  exact hdM_apply o hs q k lg hlg m0 r

theorem hdAl_apply : hdAl o hs q k m0 (ix2 r (0 : Fin 1)) = Ideal.exp (m0 (ix2 r (0 : Fin 1)) - stepM (m0 (ix2 r (0 : Fin 1))) (lg r)) := by
  unfold hdAl
  show Ideal.exp (subf m0 (hdM o hs q k m0) (ix2 r (0 : Fin 1))) = _
  rw [subf_apply, hdM_apply o hs q k lg hlg]

theorem hdP_apply (cc : Fin 512) :
    hdP o hs q k m0 (ix2 r cc) = Ideal.exp (lg r cc - stepM (m0 (ix2 r (0 : Fin 1))) (lg r)) := by
  unfold hdP
  show Ideal.exp (subf (hdS o hs q k) (broadcastTo S512x512 (hdM o hs q k m0) broadcasts_S512x1_S512x512) (ix2 r cc)) = _
  rw [subf_apply, spread512_apply, hlg, hdM_apply o hs q k lg hlg]

theorem hdLst_apply :
    hdLst o hs q k m0 l0 (ix2 r (0 : Fin 1)) = stepL (m0 (ix2 r (0 : Fin 1))) (l0 (ix2 r (0 : Fin 1))) (lg r) := by
  unfold hdLst stepL
  rw [shapeCast_self, addf_apply, mulf_apply, castCol_apply, rowSum_apply, hdAl_apply o hs q k lg hlg]
  exact congrArg (_ + ·) (Finset.sum_congr rfl fun cc _ => hdP_apply o hs q k lg hlg m0 r cc)

theorem hdAst_apply (h : Fin 16) (ho0 : o 0 = 0) (ho1 : o 1 = 64 * h.val) (a0 : Vec FF S512x64 .f32) (d : Fin 64) :
    hdAst o hs q k m0 a0 (ix2 r d)
      = stepA (m0 (ix2 r (0 : Fin 1))) (a0 (ix2 r d)) (lg r) (fun cc => k (ix2 cc (col h d))) := by
  unfold hdAst hdK stepA
  rw [shapeCast_self, addf_apply, mulf_apply, spread64_apply, matA_apply, hdAl_apply o hs q k lg hlg]
  refine congrArg (_ + ·) (Finset.sum_congr rfl fun cc _ => ?_)
  rw [truncf_apply, hdP_apply o hs q k lg hlg, slice_apply o hs h ho0 ho1]

end HeadLg

theorem zeros3 : (![0, 0, 0] : Fin 3 → ℕ) = fun _ => 0 := by
  funext a; fin_cases a <;> rfl
theorem zeros2 : (![0, 0] : Fin 2 → ℕ) = fun _ => 0 := by
  funext a; fin_cases a <;> rfl

theorem tileQ_apply (arg : Memref sig .tc .vmem S1x512x1024 .bf16) (harg : arg.IsWhole) (x : Vec FF S1x512x1024 .bf16)
    (r : Fin 512) (e : Fin 1024) :
    k1_pay4 (View.readAt (Elt FF) arg.view (Rect.unit (s := S1x512x1024) ![0, 0, 0] S1x512x1024.size inb_S1x512x1024_S1x512x1024_0_0_0).toLoadRect (harg.unread x)) (ix2 r e)
      = x (ix3 (0 : Fin 1) r e) := by
  unfold k1_pay4
  rw [shapeCast_1ab_ab_apply, View.readAt_eq_ld, harg.read_unread, View.ld_unit_zero (S := S1x512x1024) zeros3]
theorem tileK_apply (arg : Memref sig .tc .vmem S1x512x1024 .bf16) (harg : arg.IsWhole) (x : Vec FF S1x512x1024 .bf16)
    (r : Fin 512) (e : Fin 1024) :
    k1_pay5 (View.readAt (Elt FF) arg.view (Rect.unit (s := S1x512x1024) ![0, 0, 0] S1x512x1024.size inb_S1x512x1024_S1x512x1024_0_0_0).toLoadRect (harg.unread x)) (ix2 r e)
      = x (ix3 (0 : Fin 1) r e) := by
  unfold k1_pay5
  rw [shapeCast_1ab_ab_apply, View.readAt_eq_ld, harg.read_unread, View.ld_unit_zero (S := S1x512x1024) zeros3]

theorem colIdx (oc : Fin S512x16.rank → ℕ) (inbc : ∀ a, oc a + S512x1.size a ≤ S512x16.size a) (h : Fin 16)
    (hc0 : oc 0 = 0) (hc1 : oc 1 = h.val) (r : Fin 512) :
    (Rect.unit (s := S512x16) oc S512x1.size inbc).idx (ix2 r (0 : Fin 1)) = ix2 r h :=
  funext fun a => Fin.ext (by
    match a with
    | ⟨0, _⟩ => show oc 0 + 1 * r.val = r.val; rw [hc0]; omega
    | ⟨1, _⟩ => show oc 1 + 1 * 0 = h.val; rw [hc1]; omega)
theorem bandIdx (ob : Fin S512x1024.rank → ℕ) (inbb : ∀ a, ob a + S512x64.size a ≤ S512x1024.size a) (h : Fin 16)
    (hb0 : ob 0 = 0) (hb1 : ob 1 = 64 * h.val) (r : Fin 512) (d : Fin 64) :
    (Rect.unit (s := S512x1024) ob S512x64.size inbb).idx (ix2 r d) = ix2 r (col h d) :=
  funext fun a => Fin.ext (by
    match a with
    | ⟨0, _⟩ => show ob 0 + 1 * r.val = r.val; rw [hb0]; omega
    | ⟨1, _⟩ => show ob 1 + 1 * d.val = 64 * h.val + d.val; rw [hb1]; omega)

theorem colLoad0_apply (c : Dev nD) (s0 : BufOf (F := FF) c scM0) (oc : Fin S512x16.rank → ℕ) (inbc : ∀ a, oc a + S512x1.size a ≤ S512x16.size a) (h : Fin 16)
    (hc0 : oc 0 = 0) (hc1 : oc 1 = h.val) (r : Fin 512) :
    View.readAt (Elt FF) scM0.view (Rect.unit (s := S512x16) oc S512x1.size inbc).toLoadRect s0 (ix2 r (0 : Fin 1)) = s0 (ix2 r h) :=
  congrArg s0 (colIdx oc inbc h hc0 hc1 r)
theorem colLoad1_apply (c : Dev nD) (s1 : BufOf (F := FF) c scM1) (oc : Fin S512x16.rank → ℕ) (inbc : ∀ a, oc a + S512x1.size a ≤ S512x16.size a) (h : Fin 16)
    (hc0 : oc 0 = 0) (hc1 : oc 1 = h.val) (r : Fin 512) :
    View.readAt (Elt FF) scM1.view (Rect.unit (s := S512x16) oc S512x1.size inbc).toLoadRect s1 (ix2 r (0 : Fin 1)) = s1 (ix2 r h) :=
  congrArg s1 (colIdx oc inbc h hc0 hc1 r)
theorem bandLoad_apply (c : Dev nD) (s2 : BufOf (F := FF) c scM2) (ob : Fin S512x1024.rank → ℕ) (inbb : ∀ a, ob a + S512x64.size a ≤ S512x1024.size a) (h : Fin 16)
    (hb0 : ob 0 = 0) (hb1 : ob 1 = 64 * h.val) (r : Fin 512) (d : Fin 64) :
    View.readAt (Elt FF) scM2.view (Rect.unit (s := S512x1024) ob S512x64.size inbb).toLoadRect s2 (ix2 r d) = s2 (ix2 r (col h d)) :=
  congrArg s2 (bandIdx ob inbb h hb0 hb1 r d)

def onCols (F : Fin 512 → Fin 16 → EReal) : Vec FF S512x16 .f32 := fun y => F (y 0) (y 1)
def onFeat (F : Fin 512 → Fin 1024 → EReal) : Vec FF S512x1024 .f32 := fun y => F (y 0) (y 1)

theorem colPiece (F : Fin 512 → Fin 16 → EReal) (oc : Fin S512x16.rank → ℕ) (inbc : ∀ a, oc a + S512x1.size a ≤ S512x16.size a)
    (h : Fin 16) (hc0 : oc 0 = 0) (hc1 : oc 1 = h.val) (w : Vec FF S512x1 .f32)
    (hw : ∀ r : Fin 512, w (ix2 r (0 : Fin 1)) = F r h) :
    ∀ x : (Rect.unit (s := S512x16) oc S512x1.size inbc).shape.Idx,
      w x = onCols F ((Rect.unit (s := S512x16) oc S512x1.size inbc).emb x) := by
  intro x
  obtain ⟨r, z, rfl⟩ : ∃ (r : Fin 512) (z : Fin 1), x = ix2 r z := ⟨x 0, x 1, eq_ix2 x⟩
  obtain rfl : z = 0 := Subsingleton.elim _ _
  show w (ix2 r 0) = onCols F ((Rect.unit (s := S512x16) oc S512x1.size inbc).idx (ix2 r 0))
  rw [colIdx oc inbc h hc0 hc1 r]
  exact hw r

theorem bandPiece (F : Fin 512 → Fin 1024 → EReal) (ob : Fin S512x1024.rank → ℕ) (inbb : ∀ a, ob a + S512x64.size a ≤ S512x1024.size a)
    (h : Fin 16) (hb0 : ob 0 = 0) (hb1 : ob 1 = 64 * h.val) (w : Vec FF S512x64 .f32)
    (hw : ∀ (r : Fin 512) (d : Fin 64), w (ix2 r d) = F r (col h d)) :
    ∀ x : (Rect.unit (s := S512x1024) ob S512x64.size inbb).shape.Idx,
      w x = onFeat F ((Rect.unit (s := S512x1024) ob S512x64.size inbb).emb x) := by
  intro x
  obtain ⟨r, d, rfl⟩ : ∃ (r : Fin 512) (d : Fin 64), x = ix2 r d := ⟨x 0, x 1, eq_ix2 x⟩
  show w (ix2 r d) = onFeat F ((Rect.unit (s := S512x1024) ob S512x64.size inbb).idx (ix2 r d))
  rw [bandIdx ob inbb h hb0 hb1 r d]
  exact hw r d

def nrmSt (o16 : Fin S512x16.rank → ℕ) (hs16 : S512x16.Slices o16 S512x1) (inv : FVec FF S512x16 .f32) (a : Vec FF S512x64 .f32) :
    FVec FF S512x64 .f32 :=
  shapeCast S512x64 (mulf a (broadcastTo S512x64 (extractStridedSlice S512x1 o16 inv hs16) broadcasts_S512x1_S512x64))
    shapeCasts_S512x64_S512x64

theorem nrmSt_apply (o16 : Fin S512x16.rank → ℕ) (hs16 : S512x16.Slices o16 S512x1) (h : Fin 16) (h0 : o16 0 = 0) (h1 : o16 1 = h.val)
    (inv : FVec FF S512x16 .f32) (a : Vec FF S512x64 .f32) (r : Fin 512) (d : Fin 64) :
    nrmSt o16 hs16 inv a (ix2 r d) = a (ix2 r d) * inv (ix2 r h) := by
  unfold nrmSt
  rw [shapeCast_self, mulf_apply, spread64_apply]
  refine congrArg (a (ix2 r d) * ·) (extractStridedSlice_apply o16 inv hs16 (ix2 r (0 : Fin 1)) (ix2 r h) fun ax => ?_)
  match ax with
  | ⟨0, _⟩ => show r.val = o16 0 + r.val; rw [h0, Nat.zero_add]
  | ⟨1, _⟩ => show h.val = o16 1 + 0; rw [h1]; rfl

theorem inv_apply (X : Vec FF S512x16 .f32) (y : S512x16.Idx) :
    divf (broadcast S512x16 (FloatOps.ofBits .f32 0x3F800000#32 : FF .f32)) X y = Ideal.div 1 (X y) := by
  rw [divf_apply, broadcast_apply, lit_one]

theorem colCov_apply (v : View sig .tc .vmem S512x16 .f32) (L : List (View.Piece (Elt FF) S512x16 .f32))
    (oc : Fin S512x16.rank → ℕ) (inbc : ∀ a, oc a + S512x1.size a ≤ S512x16.size a) (h : Fin 16)
    (hc0 : oc 0 = 0) (hc1 : oc 1 = h.val) (r : Fin 512) :
    v.readCov L (Rect.unit (s := S512x16) oc S512x1.size inbc).toLoadRect (ix2 r (0 : Fin 1)) = View.canon L (ix2 r h) := by
  rw [View.readCov_eq_canon']
  exact congrArg (View.canon L) (colIdx oc inbc h hc0 hc1 r)
theorem bandCov_apply (v : View sig .tc .vmem S512x1024 .f32) (L : List (View.Piece (Elt FF) S512x1024 .f32))
    (ob : Fin S512x1024.rank → ℕ) (inbb : ∀ a, ob a + S512x64.size a ≤ S512x1024.size a) (h : Fin 16)
    (hb0 : ob 0 = 0) (hb1 : ob 1 = 64 * h.val) (r : Fin 512) (d : Fin 64) :
    v.readCov L (Rect.unit (s := S512x1024) ob S512x64.size inbb).toLoadRect (ix2 r d) = View.canon L (ix2 r (col h d)) := by
  rw [View.readCov_eq_canon']
  exact congrArg (View.canon L) (bandIdx ob inbb h hb0 hb1 r d)

theorem reset0_apply (y : S512x16.Idx) : k1_pay1 (F := FF) y = (⊥ : EReal) := by
  unfold k1_pay1
  rw [shapeCast_self, broadcast_apply]
  show Ideal.ofBits .f32 0xFF800000#32 = _
  simp [Ideal.ofBits, Ideal.ieee]
theorem reset1_apply (y : S512x16.Idx) : k1_pay2 (F := FF) y = (0 : EReal) := by
  unfold k1_pay2
  rw [shapeCast_self, broadcast_apply]
  exact Ideal.ofBits_zero_f32
theorem reset2_apply (y : S512x1024.Idx) : k1_pay3 (F := FF) y = (0 : EReal) := by
  unfold k1_pay3
  rw [shapeCast_self, broadcast_apply]
  exact Ideal.ofBits_zero_f32

abbrev botC : Vec FF S512x16 .f32 := fun _ => (⊥ : EReal)
abbrev zeroC : Vec FF S512x16 .f32 := fun _ => (0 : EReal)
abbrev zeroA : Vec FF S512x1024 .f32 := fun _ => (0 : EReal)

section Upd
variable (c : Dev nD)
  (arg4 : Memref sig .tc .vmem S1x512x1024 .bf16) (harg4 : arg4.IsWhole) (arg5 : Memref sig .tc .vmem S1x512x1024 .bf16) (harg5 : arg5.IsWhole)
  (x4 x5 : Vec FF S1x512x1024 .bf16)

abbrev Qof : FVec FF S512x1024 .bf16 :=
  k1_pay4 (View.readAt (Elt FF) arg4.view (Rect.unit (s := S1x512x1024) ![0, 0, 0] S1x512x1024.size inb_S1x512x1024_S1x512x1024_0_0_0).toLoadRect (harg4.unread x4))
abbrev Kof : FVec FF S512x1024 .bf16 :=
  k1_pay5 (View.readAt (Elt FF) arg5.view (Rect.unit (s := S1x512x1024) ![0, 0, 0] S1x512x1024.size inb_S1x512x1024_S1x512x1024_0_0_0).toLoadRect (harg5.unread x5))

abbrev qa : Fin 512 → Fin 1024 → EReal := fun r e => x4 (ix3 (0 : Fin 1) r e)
abbrev ka : Fin 512 → Fin 1024 → EReal := fun r e => x5 (ix3 (0 : Fin 1) r e)

theorem Qof_eq : (fun r e => Qof arg4 harg4 x4 (ix2 r e)) = qa x4 :=
  funext fun r => funext fun e => tileQ_apply arg4 harg4 x4 r e
theorem Kof_eq : (fun r e => Kof arg5 harg5 x5 (ix2 r e)) = ka x5 :=
  funext fun r => funext fun e => tileK_apply arg5 harg5 x5 r e

def FM (s0 : Vec FF S512x16 .f32) (r : Fin 512) (h : Fin 16) : EReal :=
  stepM (s0 (ix2 r h)) (tileLogit true (qa x4) (ka x5) h r)
def FL (s0 s1 : Vec FF S512x16 .f32) (r : Fin 512) (h : Fin 16) : EReal :=
  stepL (s0 (ix2 r h)) (s1 (ix2 r h)) (tileLogit true (qa x4) (ka x5) h r)
def FA (s0 : Vec FF S512x16 .f32) (s2 : Vec FF S512x1024 .f32) (r : Fin 512) (e : Fin 1024) : EReal :=
  stepA (s0 (ix2 r (headOf e))) (s2 (ix2 r e)) (tileLogit true (qa x4) (ka x5) (headOf e) r) (fun cc => ka x5 cc e)

theorem headOf_col (h : Fin 16) (d : Fin 64) : headOf (col h d) = h :=
  Fin.ext (by show (64 * h.val + d.val) / 64 = h.val; omega)

/-- Over a list that holds F where P and z elsewhere, a store of F's values holds F on its rectangle as well. -/
theorem canon_cons_if {S : Shape} {e : EltTy} {R : Rect S} {w : R.shape.Idx → Elt FF e} {L : List (View.Piece (Elt FF) S e)}
    {P Q : S.Idx → Prop} [DecidablePred P] [DecidablePred Q] {F z : S.Idx → Elt FF e}
    (hL : ∀ y, View.canon L y = if P y then F y else z y) (hw : ∀ x, w x = F (R.emb x))
    (hQ : ∀ y, Q y ↔ P y ∨ y ∈ R.set) (y : S.Idx) :
    View.canon ((⟨R, w⟩ : View.Piece (Elt FF) S e) :: L) y = if Q y then F y else z y := by
  by_cases hy : y ∈ R.set
  · obtain ⟨x, rfl⟩ := R.exists_idx_of_mem hy
    rw [if_pos ((hQ _).2 (.inr hy))]
    exact (View.canon_cons_emb R w L x).trans (hw x)
  · rw [View.canon_cons_of_not_mem _ L hy, hL]
    exact if_congr ⟨fun h => (hQ y).2 (.inl h), fun h => ((hQ y).1 h).resolve_right hy⟩ rfl rfl

/-- A block of all rows and m columns from column off 1 holds the indices whose column is among those. -/
theorem mem_cols {n0 n1 m : ℕ} {off : Fin 2 → ℕ} {inb : ∀ a, off a + (![n0, m] : Fin 2 → ℕ) a ≤ (⟨2, ![n0, n1]⟩ : Shape).size a}
    (h0 : off 0 = 0) (y : (⟨2, ![n0, n1]⟩ : Shape).Idx) :
    y ∈ (Rect.unit (s := ⟨2, ![n0, n1]⟩) off ![n0, m] inb).set ↔ off 1 ≤ (y 1).val ∧ (y 1).val < off 1 + m := by
  refine Rect.mem_set_unit.trans ⟨fun h => h 1, fun h a => ?_⟩
  match a with
  | ⟨0, _⟩ => exact ⟨h0.le.trans (Nat.zero_le _), by show (y 0).val < off 0 + n0; rw [h0, Nat.zero_add]; exact (y 0).isLt⟩
  | ⟨1, _⟩ => exact h
theorem mem_col {oc : Fin S512x16.rank → ℕ} {inbc : ∀ a, oc a + S512x1.size a ≤ S512x16.size a} (hc0 : oc 0 = 0) (y : S512x16.Idx) :
    y ∈ (Rect.unit (s := S512x16) oc S512x1.size inbc).set ↔ oc 1 ≤ (y 1).val ∧ (y 1).val < oc 1 + 1 := mem_cols hc0 y
theorem mem_band {ob : Fin S512x1024.rank → ℕ} {inbb : ∀ a, ob a + S512x64.size a ≤ S512x1024.size a} (hb0 : ob 0 = 0) (y : S512x1024.Idx) :
    y ∈ (Rect.unit (s := S512x1024) ob S512x64.size inbb).set ↔ ob 1 ≤ (y 1).val ∧ (y 1).val < ob 1 + 64 := mem_cols hb0 y

/-- The three lists hold the masked update of S on the heads before k, and z elsewhere. -/
structure Upd (S0 S1 z0 z1 : Vec FF S512x16 .f32) (S2 z2 : Vec FF S512x1024 .f32) (k : ℕ)
    (L0 L1 : List (View.Piece (Elt FF) S512x16 .f32)) (L2 : List (View.Piece (Elt FF) S512x1024 .f32)) : Prop where
  m : ∀ y, View.canon L0 y = if (y 1).val < k then onCols (FM x4 x5 S0) y else z0 y
  l : ∀ y, View.canon L1 y = if (y 1).val < k then onCols (FL x4 x5 S0 S1) y else z1 y
  a : ∀ y, View.canon L2 y = if (y 1).val < 64 * k then onFeat (FA x4 x5 S0 S2) y else z2 y

variable {S0 S1 z0 z1 : Vec FF S512x16 .f32} {S2 z2 : Vec FF S512x1024 .f32} {k : ℕ}
  {L0 L1 : List (View.Piece (Elt FF) S512x16 .f32)} {L2 : List (View.Piece (Elt FF) S512x1024 .f32)}

theorem Upd.base (h0 : ∀ y, View.canon L0 y = z0 y) (h1 : ∀ y, View.canon L1 y = z1 y) (h2 : ∀ y, View.canon L2 y = z2 y) :
    Upd x4 x5 S0 S1 z0 z1 S2 z2 0 L0 L1 L2 :=
  ⟨fun y => (h0 y).trans (if_neg (Nat.not_lt_zero _)).symm, fun y => (h1 y).trans (if_neg (Nat.not_lt_zero _)).symm,
    fun y => (h2 y).trans (if_neg (Nat.not_lt_zero _)).symm⟩

theorem Upd.done (H : Upd x4 x5 S0 S1 z0 z1 S2 z2 16 L0 L1 L2) :
    (∀ y, View.canon L0 y = onCols (FM x4 x5 S0) y) ∧ (∀ y, View.canon L1 y = onCols (FL x4 x5 S0 S1) y) ∧
      ∀ y, View.canon L2 y = onFeat (FA x4 x5 S0 S2) y :=
  ⟨fun y => (H.m y).trans (if_pos (y 1).isLt), fun y => (H.l y).trans (if_pos (y 1).isLt), fun y => (H.a y).trans (if_pos (y 1).isLt)⟩

/-- Number k as one of the sixteen heads. -/
def hd (k : ℕ) : Fin 16 := ⟨k % 16, Nat.mod_lt k (by decide)⟩

/-- A head's column of a statistic and its band of the accumulator lie inside. -/
theorem inbCol (h : Fin 16) (a : Fin S512x16.rank) : (![0, h.val] : Fin 2 → ℕ) a + S512x1.size a ≤ S512x16.size a :=
  match a with
  | ⟨0, _⟩ => Nat.le_refl 512
  | ⟨1, _⟩ => h.isLt
theorem inbBand (h : Fin 16) (a : Fin S512x1024.rank) : (![0, 64 * h.val] : Fin 2 → ℕ) a + S512x64.size a ≤ S512x1024.size a :=
  match a with
  | ⟨0, _⟩ => Nat.le_refl 512
  | ⟨1, _⟩ => by show 64 * h.val + 64 ≤ 1024; omega
theorem slBand (h : Fin 16) : S512x1024.Slices ![0, 64 * h.val] S512x64 := ⟨rfl, inbBand h⟩
theorem slCol (h : Fin 16) : S512x16.Slices ![0, h.val] S512x1 := ⟨rfl, inbCol h⟩

/-- Head k's three stores, its loads reading S at head k, carry the lists from k heads to k + 1. -/
theorem Upd.step {m0 l0 : Vec FF S512x1 .f32} {a0 : Vec FF S512x64 .f32} (hk : k < 16)
    (hld : Upd x4 x5 S0 S1 z0 z1 S2 z2 k L0 L1 L2 → (∀ r, m0 (ix2 r (0 : Fin 1)) = S0 (ix2 r (hd k))) ∧
      (∀ r, l0 (ix2 r (0 : Fin 1)) = S1 (ix2 r (hd k))) ∧ ∀ r d, a0 (ix2 r d) = S2 (ix2 r (col (hd k) d)))
    (H : Upd x4 x5 S0 S1 z0 z1 S2 z2 k L0 L1 L2) :
    Upd x4 x5 S0 S1 z0 z1 S2 z2 (k + 1)
      (⟨Rect.unit (s := S512x16) ![0, (hd k).val] S512x1.size (inbCol (hd k)), hdMst ![0, 64 * (hd k).val] (slBand (hd k)) (Qof arg4 harg4 x4) (Kof arg5 harg5 x5) m0⟩ :: L0)
      (⟨Rect.unit (s := S512x16) ![0, (hd k).val] S512x1.size (inbCol (hd k)), hdLst ![0, 64 * (hd k).val] (slBand (hd k)) (Qof arg4 harg4 x4) (Kof arg5 harg5 x5) m0 l0⟩ :: L1)
      (⟨Rect.unit (s := S512x1024) ![0, 64 * (hd k).val] S512x64.size (inbBand (hd k)), hdAst ![0, 64 * (hd k).val] (slBand (hd k)) (Qof arg4 harg4 x4) (Kof arg5 harg5 x5) m0 a0⟩ :: L2) := by
  obtain ⟨hm, hl, ha⟩ := hld H
  have e : (hd k).val = k := Nat.mod_eq_of_lt hk
  have hlg : ∀ r cc, hdS ![0, 64 * (hd k).val] (slBand (hd k)) (Qof arg4 harg4 x4) (Kof arg5 harg5 x5) (ix2 r cc) = tileLogit true (qa x4) (ka x5) (hd k) r cc :=
    fun r cc => by rw [hdS_apply _ _ _ _ (hd k) rfl rfl, Qof_eq, Kof_eq]
  refine ⟨canon_cons_if H.m (colPiece _ _ _ (hd k) rfl rfl _ fun r => ?_) fun y => ?_,
    canon_cons_if H.l (colPiece _ _ _ (hd k) rfl rfl _ fun r => ?_) fun y => ?_,
    canon_cons_if H.a (bandPiece _ _ _ (hd k) rfl rfl _ fun r d => ?_) fun y => ?_⟩
  · rw [hdMst_apply _ _ _ _ _ hlg, hm]; rfl
  · rw [mem_col rfl]; show _ ↔ _ ∨ ((hd k).val ≤ _ ∧ _ < (hd k).val + 1); omega
  · rw [hdLst_apply _ _ _ _ _ hlg, hm, hl]; rfl
  · rw [mem_col rfl]; show _ ↔ _ ∨ ((hd k).val ≤ _ ∧ _ < (hd k).val + 1); omega
  · rw [hdAst_apply _ _ _ _ _ hlg _ _ (hd k) rfl rfl, hm, ha]
    unfold FA
    rw [headOf_col]
    exact congrArg (stepA _ _ _) (funext fun cc => tileK_apply arg5 harg5 x5 cc (col (hd k) d))
  · rw [mem_band rfl]; show _ ↔ _ ∨ (64 * (hd k).val ≤ _ ∧ _ < 64 * (hd k).val + 64); omega

/-- The step where the loads read the statistics found. -/
theorem Upd.stepD (s0 : BufOf (F := FF) c scM0) (s1 : BufOf (F := FF) c scM1) (s2 : BufOf (F := FF) c scM2) (hk : k < 16)
    (H : Upd x4 x5 s0 s1 z0 z1 s2 z2 k L0 L1 L2) :
    Upd x4 x5 s0 s1 z0 z1 s2 z2 (k + 1)
      (⟨Rect.unit (s := S512x16) ![0, (hd k).val] S512x1.size (inbCol (hd k)), hdMst ![0, 64 * (hd k).val] (slBand (hd k)) (Qof arg4 harg4 x4) (Kof arg5 harg5 x5) (View.readAt (Elt FF) scM0.view (Rect.unit (s := S512x16) ![0, (hd k).val] S512x1.size (inbCol (hd k))).toLoadRect s0)⟩ :: L0)
      (⟨Rect.unit (s := S512x16) ![0, (hd k).val] S512x1.size (inbCol (hd k)), hdLst ![0, 64 * (hd k).val] (slBand (hd k)) (Qof arg4 harg4 x4) (Kof arg5 harg5 x5) (View.readAt (Elt FF) scM0.view (Rect.unit (s := S512x16) ![0, (hd k).val] S512x1.size (inbCol (hd k))).toLoadRect s0)
        (View.readAt (Elt FF) scM1.view (Rect.unit (s := S512x16) ![0, (hd k).val] S512x1.size (inbCol (hd k))).toLoadRect s1)⟩ :: L1)
      (⟨Rect.unit (s := S512x1024) ![0, 64 * (hd k).val] S512x64.size (inbBand (hd k)), hdAst ![0, 64 * (hd k).val] (slBand (hd k)) (Qof arg4 harg4 x4) (Kof arg5 harg5 x5) (View.readAt (Elt FF) scM0.view (Rect.unit (s := S512x16) ![0, (hd k).val] S512x1.size (inbCol (hd k))).toLoadRect s0)
        (View.readAt (Elt FF) scM2.view (Rect.unit (s := S512x1024) ![0, 64 * (hd k).val] S512x64.size (inbBand (hd k))).toLoadRect s2)⟩ :: L2) :=
  Upd.step arg4 harg4 arg5 harg5 x4 x5 hk (fun _ =>
    ⟨colLoad0_apply c s0 _ _ _ rfl rfl, colLoad1_apply c s1 _ _ _ rfl rfl, bandLoad_apply c s2 _ _ _ rfl rfl⟩) H

/-- The step over a reset (z = S): the loads read S through the stores of the heads before. -/
theorem Upd.stepA (hk : k < 16) (H : Upd x4 x5 S0 S1 S0 S1 S2 S2 k L0 L1 L2) :
    Upd x4 x5 S0 S1 S0 S1 S2 S2 (k + 1)
      (⟨Rect.unit (s := S512x16) ![0, (hd k).val] S512x1.size (inbCol (hd k)), hdMst ![0, 64 * (hd k).val] (slBand (hd k)) (Qof arg4 harg4 x4) (Kof arg5 harg5 x5) (scM0.view.readCov L0 (Rect.unit (s := S512x16) ![0, (hd k).val] S512x1.size (inbCol (hd k))).toLoadRect)⟩ :: L0)
      (⟨Rect.unit (s := S512x16) ![0, (hd k).val] S512x1.size (inbCol (hd k)), hdLst ![0, 64 * (hd k).val] (slBand (hd k)) (Qof arg4 harg4 x4) (Kof arg5 harg5 x5) (scM0.view.readCov L0 (Rect.unit (s := S512x16) ![0, (hd k).val] S512x1.size (inbCol (hd k))).toLoadRect) (scM1.view.readCov L1 (Rect.unit (s := S512x16) ![0, (hd k).val] S512x1.size (inbCol (hd k))).toLoadRect)⟩ :: L1)
      (⟨Rect.unit (s := S512x1024) ![0, 64 * (hd k).val] S512x64.size (inbBand (hd k)), hdAst ![0, 64 * (hd k).val] (slBand (hd k)) (Qof arg4 harg4 x4) (Kof arg5 harg5 x5) (scM0.view.readCov L0 (Rect.unit (s := S512x16) ![0, (hd k).val] S512x1.size (inbCol (hd k))).toLoadRect) (scM2.view.readCov L2 (Rect.unit (s := S512x1024) ![0, 64 * (hd k).val] S512x64.size (inbBand (hd k))).toLoadRect)⟩ :: L2) := by
  have e : (hd k).val = k := Nat.mod_eq_of_lt hk
  exact Upd.step arg4 harg4 arg5 harg5 x4 x5 hk (fun H =>
    ⟨fun r => (colCov_apply _ L0 _ _ (hd k) rfl rfl r).trans ((H.m _).trans (if_neg (not_lt.2 e.ge))),
      fun r => (colCov_apply _ L1 _ _ (hd k) rfl rfl r).trans ((H.l _).trans (if_neg (not_lt.2 e.ge))),
      fun r d => (bandCov_apply _ L2 _ _ (hd k) rfl rfl r d).trans ((H.a _).trans
        (if_neg (by show ¬ 64 * (hd k).val + d.val < 64 * k; omega)))⟩) H

/-- The list holds the normalised sums on the bands before k and the sums Fa elsewhere. -/
def Nrm (Fa : Fin 512 → Fin 1024 → EReal) (Fl : Fin 512 → Fin 16 → EReal) (k : ℕ) (L : List (View.Piece (Elt FF) S512x1024 .f32)) : Prop :=
  ∀ y, View.canon L y = if (y 1).val < 64 * k then onFeat (fun r e => finA (Fa r e) (Fl r (headOf e))) y else onFeat Fa y

/-- Head k's normalisation store carries the list from k bands to k + 1. -/
theorem Nrm.step {Fa : Fin 512 → Fin 1024 → EReal} {Fl : Fin 512 → Fin 16 → EReal} {L : List (View.Piece (Elt FF) S512x1024 .f32)}
    {inv : FVec FF S512x16 .f32} (hk : k < 16) (hinv : ∀ y, inv y = Ideal.div 1 (onCols Fl y)) (H : Nrm Fa Fl k L) :
    Nrm Fa Fl (k + 1) (⟨Rect.unit (s := S512x1024) ![0, 64 * (hd k).val] S512x64.size (inbBand (hd k)),
      nrmSt ![0, (hd k).val] (slCol (hd k)) inv (scM2.view.readCov L (Rect.unit (s := S512x1024) ![0, 64 * (hd k).val] S512x64.size (inbBand (hd k))).toLoadRect)⟩ :: L) := by
  have e : (hd k).val = k := Nat.mod_eq_of_lt hk
  exact canon_cons_if H (bandPiece _ _ _ (hd k) rfl rfl _ fun r d => by
      rw [nrmSt_apply _ _ (hd k) rfl rfl, bandCov_apply _ L _ _ (hd k) rfl rfl, H _,
        if_neg (by show ¬ 64 * (hd k).val + d.val < 64 * k; omega), hinv, headOf_col]
      rfl)
    fun y => by rw [mem_band rfl]; show _ ↔ _ ∨ (64 * (hd k).val ≤ _ ∧ _ < 64 * (hd k).val + 64); omega

theorem wholeIdx16 (inb : ∀ a, (![0, 0] : Fin 2 → ℕ) a + S512x16.size a ≤ S512x16.size a) (y : S512x16.Idx) :
    (Rect.unit (s := S512x16) ![0, 0] S512x16.size inb).idx y = y :=
  congrFun (View.ld_unit_zero (S := S512x16) (Val := fun _ => S512x16.Idx) (e := .f32) zeros2 inb id) y

/-- The reciprocal of the denominators a list holds, loaded whole. -/
theorem inv_whole (L : List (View.Piece (Elt FF) S512x16 .f32)) (inb : ∀ a, (![0, 0] : Fin 2 → ℕ) a + S512x16.size a ≤ S512x16.size a)
    (y : S512x16.Idx) :
    divf (broadcast S512x16 (FloatOps.ofBits .f32 0x3F800000#32 : FF .f32))
      (scM1.view.readCov L (Rect.unit (s := S512x16) ![0, 0] S512x16.size inb).toLoadRect) y = Ideal.div 1 (View.canon L y) := by
  rw [inv_apply, View.readCov_eq_canon']
  exact congrArg _ (congrArg _ (wholeIdx16 inb y))

theorem wholeCanon16 (w : Vec FF S512x16 .f32) (y : S512x16.Idx) :
    View.canon [(⟨Rect.unit (s := S512x16) ![0, 0] S512x16.size inb_S512x16_S512x16_0_0, w⟩ : View.Piece (Elt FF) S512x16 .f32)] y = w y :=
  congrFun (View.canon_unit_zero (S := S512x16) zeros2 inb_S512x16_S512x16_0_0 w) y
theorem wholeCanon1024 (w : Vec FF S512x1024 .f32) (y : S512x1024.Idx) :
    View.canon [(⟨Rect.unit (s := S512x1024) ![0, 0] S512x1024.size inb_S512x1024_S512x1024_0_0, w⟩ : View.Piece (Elt FF) S512x1024 .f32)] y = w y :=
  congrFun (View.canon_unit_zero (S := S512x1024) zeros2 inb_S512x1024_S512x1024_0_0 w) y

end Upd

end Cert.KernelIdeal.Hand

end
-- ==== Proof.KI1ValBC.lean ====
/- The plain (unmasked) tile step of the attention kernel, for the two control cases off the diagonal: after it the three
   scratch buffers hold, row by row, one online-softmax step from what they held, or from the reset values. -/
import proofs.«408594_j31722628448459_3_alg».proof.Proof.KI1ValHead

noncomputable section

namespace Cert.KernelIdeal.Hand

open Cert.KernelIdeal Cert.KernelIdeal.Gen Cert.Attn
open Idealize.ShloMosaic Idealize.ShloMosaic.TcCoe Idealize.ShloMosaic.ValueIdx

namespace PlainStep

section Head
variable (o : Fin S512x1024.rank → ℕ) (hs : S512x1024.Slices o S512x64) (q k : FVec Ideal S512x1024 .bf16)
  (m0 l0 : Vec Ideal S512x1 .f32) (a0 : Vec Ideal S512x64 .f32)

/-- One head's scaled scores, new maximum, weights, new denominator and new accumulator band. -/
def pS : FVec Ideal S512x512 .f32 :=
  mulf (matmul dot_S512x64_S512x64_S512x512_1_1_0_0_n_n none (extractStridedSlice S512x64 o q hs)
    (extractStridedSlice S512x64 o k hs) (constant S512x512 .f32 0x00000000#32))
    (broadcast S512x512 (FloatOps.ofBits .f32 0x3E000000#32))
def pM : FVec Ideal S512x1 .f32 :=
  maximumf m0 (shapeCast S512x1 (multiReduction .maximumf [1] S512 (pS o hs q k) 0xFF800000#32 reduces_S512x512_S512 (.inl rfl) rfl)
    shapeCasts_S512_S512x1)
def pP : FVec Ideal S512x512 .f32 :=
  exp (subf (pS o hs q k) (broadcastTo S512x512 (pM o hs q k m0) broadcasts_S512x1_S512x512))
def pL : FVec Ideal S512x1 .f32 :=
  addf (mulf (exp (subf m0 (pM o hs q k m0))) l0)
    (shapeCast S512x1 (multiReduction .add [1] S512 (pP o hs q k m0) 0x00000000#32 reduces_S512x512_S512 (.inl rfl) rfl)
      shapeCasts_S512_S512x1)
def pA : FVec Ideal S512x64 .f32 :=
  addf (mulf (broadcastTo S512x64 (exp (subf m0 (pM o hs q k m0))) broadcasts_S512x1_S512x64) a0)
    (matmul dot_S512x512_S512x64_S512x64_1_0_0_1_n_n none (truncf .bf16 (pP o hs q k m0) bitsLt_bf16_f32)
      (extractStridedSlice S512x64 o k hs) (constant S512x64 .f32 0x00000000#32))

theorem expSub_apply {s : Shape} (a b : FVec Ideal s .f32) (i : s.Idx) : exp (subf a b) i = Ideal.exp (a i - b i) := rfl

variable {o hs q k m0 l0 a0} (h : Fin 16) (ho0 : o 0 = 0) (ho1 : o 1 = 64 * h.val) {qb kb : Fin 512 → Fin 1024 → EReal}
  (hq : ∀ r e, q (ix2 r e) = qb r e) (hk : ∀ r e, k (ix2 r e) = kb r e)
include ho0 ho1 hq hk

theorem pS_apply (r cc : Fin 512) : pS o hs q k (ix2 r cc) = tileLogit false qb kb h r cc := by
  unfold pS tileLogit
  rw [mulf_apply, broadcast_apply, matS_apply, if_neg (fun hh => Bool.false_ne_true hh.1)]
  refine congrArg₂ (· * ·) (Finset.sum_congr rfl fun d _ => ?_) lit_eighth
  rw [slice_apply o hs h ho0 ho1, slice_apply o hs h ho0 ho1, hq, hk]

theorem pM_apply (r : Fin 512) : pM o hs q k m0 (ix2 r (0 : Fin 1)) = stepM (m0 (ix2 r (0 : Fin 1))) (tileLogit false qb kb h r) := by
  unfold pM stepM
  rw [maximumf_apply, castCol_apply, rowMax_apply]
  exact congrArg (max _) (congrArg Finset.univ.sup (funext fun cc => pS_apply h ho0 ho1 hq hk r cc))

theorem pP_apply (r cc : Fin 512) :
    pP o hs q k m0 (ix2 r cc) = Ideal.exp (tileLogit false qb kb h r cc - stepM (m0 (ix2 r (0 : Fin 1))) (tileLogit false qb kb h r)) := by
  unfold pP
  rw [expSub_apply, spread512_apply, pS_apply h ho0 ho1 hq hk, pM_apply h ho0 ho1 hq hk]

theorem pL_apply (r : Fin 512) :
    pL o hs q k m0 l0 (ix2 r (0 : Fin 1)) = stepL (m0 (ix2 r (0 : Fin 1))) (l0 (ix2 r (0 : Fin 1))) (tileLogit false qb kb h r) := by
  unfold pL stepL
  rw [addf_apply, mulf_apply, expSub_apply, castCol_apply, rowSum_apply, pM_apply h ho0 ho1 hq hk]
  exact congrArg (_ + ·) (Finset.sum_congr rfl fun cc _ => pP_apply h ho0 ho1 hq hk r cc)

theorem pA_apply (r : Fin 512) (d : Fin 64) :
    pA o hs q k m0 a0 (ix2 r d)
      = stepA (m0 (ix2 r (0 : Fin 1))) (a0 (ix2 r d)) (tileLogit false qb kb h r) (fun cc => kb cc (col h d)) := by
  unfold pA stepA
  rw [addf_apply, mulf_apply, spread64_apply, expSub_apply, matA_apply, pM_apply h ho0 ho1 hq hk]
  refine congrArg (_ + ·) (Finset.sum_congr rfl fun cc _ => ?_)
  rw [truncf_apply, pP_apply h ho0 ho1 hq hk, slice_apply o hs h ho0 ho1, hk]

variable (S : Fin 512 → RowSt) (hm : ∀ r : Fin 512, m0 (ix2 r (0 : Fin 1)) = (S r).m h)
include hm

/-- What head h stores is row by row the plain step of the statistics S its loads read. -/
theorem pieceM (r : Fin 512) :
    shapeCast S512x1 (pM o hs q k m0) shapeCasts_S512x1_S512x1 (ix2 r (0 : Fin 1)) = (rowStep false false qb kb r (S r)).m h := by
  rw [shapeCast_self, pM_apply h ho0 ho1 hq hk, hm]
  rfl
theorem pieceL (hl : ∀ r : Fin 512, l0 (ix2 r (0 : Fin 1)) = (S r).l h) (r : Fin 512) :
    shapeCast S512x1 (pL o hs q k m0 l0) shapeCasts_S512x1_S512x1 (ix2 r (0 : Fin 1)) = (rowStep false false qb kb r (S r)).l h := by
  rw [shapeCast_self, pL_apply h ho0 ho1 hq hk, hm, hl]
  rfl
theorem pieceA (ha : ∀ (r : Fin 512) (d : Fin 64), a0 (ix2 r d) = (S r).a (col h d)) (r : Fin 512) (d : Fin 64) :
    shapeCast S512x64 (pA o hs q k m0 a0) shapeCasts_S512x64_S512x64 (ix2 r d) = (rowStep false false qb kb r (S r)).a (col h d) := by
  rw [shapeCast_self, pA_apply h ho0 ho1 hq hk, hm, ha]
  exact (congrArg (fun h' => stepA ((S r).m h') ((S r).a (col h d)) (tileLogit false qb kb h' r) fun cc => kb cc (col h d))
    (Fin.ext (by show (64 * h.val + d.val) / 64 = h.val; omega) : headOf (col h d) = h)).symm
end Head

/-- A head's column of a [512, 16] buffer and its band of the [512, 1024] buffer. -/
abbrev colR (oc : Fin S512x16.rank → ℕ) (inbc : ∀ a, oc a + S512x1.size a ≤ S512x16.size a) : Rect S512x16 :=
  Rect.unit oc S512x1.size inbc
abbrev bandR (ob : Fin S512x1024.rank → ℕ) (inbb : ∀ a, ob a + S512x64.size a ≤ S512x1024.size a) : Rect S512x1024 :=
  Rect.unit ob S512x64.size inbb

/-- The three lists of stores hold row r's statistics R r on the columns and bands of the first n heads, and Z0, Z1, Z2 elsewhere. -/
structure Upto (R : Fin 512 → RowSt) (Z0 Z1 : Vec Ideal S512x16 .f32) (Z2 : Vec Ideal S512x1024 .f32) (n : ℕ)
    (L0 L1 : List (View.Piece (Elt Ideal) S512x16 .f32)) (L2 : List (View.Piece (Elt Ideal) S512x1024 .f32)) : Prop where
  m : ∀ y, View.canon L0 y = if (y 1).val < n then (R (y 0)).m (y 1) else Z0 y
  l : ∀ y, View.canon L1 y = if (y 1).val < n then (R (y 0)).l (y 1) else Z1 y
  a : ∀ y, View.canon L2 y = if (y 1).val < 64 * n then (R (y 0)).a (y 1) else Z2 y

section Step
variable {R : Fin 512 → RowSt} {Z0 Z1 : Vec Ideal S512x16 .f32} {Z2 : Vec Ideal S512x1024 .f32} {n : ℕ}
  {L0 L1 : List (View.Piece (Elt Ideal) S512x16 .f32)} {L2 : List (View.Piece (Elt Ideal) S512x1024 .f32)} (hn : n < 16)
  {oc : Fin S512x16.rank → ℕ} {inbc : ∀ a, oc a + S512x1.size a ≤ S512x16.size a} (hc0 : oc 0 = 0) (hc1 : oc 1 = n)
  {ob : Fin S512x1024.rank → ℕ} {inbb : ∀ a, ob a + S512x64.size a ≤ S512x1024.size a} (hb0 : ob 0 = 0) (hb1 : ob 1 = 64 * n)

include hc0 hc1 in
theorem col_step (G : Fin 512 → Fin 16 → EReal) (hL : ∀ y, View.canon L0 y = if (y 1).val < n then G (y 0) (y 1) else Z0 y)
    (w : Vec Ideal S512x1 .f32) (hw : ∀ r : Fin 512, w (ix2 r (0 : Fin 1)) = G r ⟨n, hn⟩) :
    ∀ y, View.canon (⟨colR oc inbc, w⟩ :: L0) y = if (y 1).val < n + 1 then G (y 0) (y 1) else Z0 y :=
  canon_cons_if (F := onCols G) hL (colPiece G oc inbc ⟨n, hn⟩ hc0 hc1 w hw) fun y => by rw [mem_col hc0, hc1]; omega

include hb0 hb1 in
theorem band_step (G : Fin 512 → Fin 1024 → EReal) (hL : ∀ y, View.canon L2 y = if (y 1).val < 64 * n then G (y 0) (y 1) else Z2 y)
    (w : Vec Ideal S512x64 .f32) (hw : ∀ (r : Fin 512) (d : Fin 64), w (ix2 r d) = G r (col ⟨n, hn⟩ d)) :
    ∀ y, View.canon (⟨bandR ob inbb, w⟩ :: L2) y = if (y 1).val < 64 * (n + 1) then G (y 0) (y 1) else Z2 y :=
  canon_cons_if (F := onFeat G) hL (bandPiece G ob inbb ⟨n, hn⟩ hb0 hb1 w hw) fun y => by rw [mem_band hb0, hb1]; omega

include hc0 hc1 hb0 hb1 in
/-- Head n's three stores, each the head's column or band of R, take the lists from n heads to n + 1. -/
theorem Upto.step (hL : Upto R Z0 Z1 Z2 n L0 L1 L2) {wM wL : Vec Ideal S512x1 .f32} {wA : Vec Ideal S512x64 .f32}
    (hM : ∀ r : Fin 512, wM (ix2 r (0 : Fin 1)) = (R r).m ⟨n, hn⟩) (hl : ∀ r : Fin 512, wL (ix2 r (0 : Fin 1)) = (R r).l ⟨n, hn⟩)
    (hA : ∀ (r : Fin 512) (d : Fin 64), wA (ix2 r d) = (R r).a (col ⟨n, hn⟩ d)) :
    Upto R Z0 Z1 Z2 (n + 1) (⟨colR oc inbc, wM⟩ :: L0) (⟨colR oc inbc, wL⟩ :: L1) (⟨bandR ob inbb, wA⟩ :: L2) :=
  ⟨col_step hn hc0 hc1 (fun r => (R r).m) hL.m wM hM, col_step hn hc0 hc1 (fun r => (R r).l) hL.l wL hl,
    band_step hn hb0 hb1 (fun r => (R r).a) hL.a wA hA⟩

/-- Sixteen heads fill the buffers: row r of the three lists is R r. -/
theorem Upto.row (hL : Upto R Z0 Z1 Z2 16 L0 L1 L2) (r : Fin 512) : rowOf (View.canon L0, View.canon L1, View.canon L2) r = R r := by
  show RowSt.mk _ _ _ = RowSt.mk (R r).m (R r).l (R r).a
  exact congr (congr (congrArg _ (funext fun h => (hL.m (ix2 r h)).trans (if_pos h.isLt)))
    (funext fun h => (hL.l (ix2 r h)).trans (if_pos h.isLt))) (funext fun e => (hL.a (ix2 r e)).trans (if_pos e.isLt))
end Step

section Steps
variable {c : Dev nD} {o : Fin S512x1024.rank → ℕ} {hs : S512x1024.Slices o S512x64} {q k : FVec Ideal S512x1024 .bf16}
  {qb kb : Fin 512 → Fin 1024 → EReal} (hq : ∀ r e, q (ix2 r e) = qb r e) (hk : ∀ r e, k (ix2 r e) = kb r e)
  {n : ℕ} (hn : n < 16) (ho0 : o 0 = 0) (ho1 : o 1 = 64 * n)
  {oc : Fin S512x16.rank → ℕ} {inbc : ∀ a, oc a + S512x1.size a ≤ S512x16.size a} (hc0 : oc 0 = 0) (hc1 : oc 1 = n)
  {ob : Fin S512x1024.rank → ℕ} {inbb : ∀ a, ob a + S512x64.size a ≤ S512x1024.size a} (hb0 : ob 0 = 0) (hb1 : ob 1 = 64 * n)
  {Z0 Z1 : Vec Ideal S512x16 .f32} {Z2 : Vec Ideal S512x1024 .f32}
  {L0 L1 : List (View.Piece (Elt Ideal) S512x16 .f32)} {L2 : List (View.Piece (Elt Ideal) S512x1024 .f32)}
include hq hk hn ho0 ho1 hc0 hc1 hb0 hb1

include c in
/-- Head n's stores when its loads read the buffers' old contents. -/
theorem stepC {s0 s1 : Vec Ideal S512x16 .f32} {s2 : Vec Ideal S512x1024 .f32}
    (hL : Upto (fun r => rowStep false false qb kb r (rowOf (s0, s1, s2) r)) Z0 Z1 Z2 n L0 L1 L2) :
    Upto (fun r => rowStep false false qb kb r (rowOf (s0, s1, s2) r)) Z0 Z1 Z2 (n + 1)
      (⟨colR oc inbc, shapeCast S512x1 (pM o hs q k (View.readAt (Elt Ideal) scM0.view (colR oc inbc).toLoadRect s0)) shapeCasts_S512x1_S512x1⟩ :: L0)
      (⟨colR oc inbc, shapeCast S512x1 (pL o hs q k (View.readAt (Elt Ideal) scM0.view (colR oc inbc).toLoadRect s0)
        (View.readAt (Elt Ideal) scM1.view (colR oc inbc).toLoadRect s1)) shapeCasts_S512x1_S512x1⟩ :: L1)
      (⟨bandR ob inbb, shapeCast S512x64 (pA o hs q k (View.readAt (Elt Ideal) scM0.view (colR oc inbc).toLoadRect s0)
        (View.readAt (Elt Ideal) scM2.view (bandR ob inbb).toLoadRect s2)) shapeCasts_S512x64_S512x64⟩ :: L2) :=
  have hm := colLoad0_apply c s0 oc inbc ⟨n, hn⟩ hc0 hc1
  hL.step hn hc0 hc1 hb0 hb1 (pieceM ⟨n, hn⟩ ho0 ho1 hq hk (fun r => rowOf (s0, s1, s2) r) hm)
    (pieceL ⟨n, hn⟩ ho0 ho1 hq hk (fun r => rowOf (s0, s1, s2) r) hm (colLoad1_apply c s1 oc inbc ⟨n, hn⟩ hc0 hc1))
    (pieceA ⟨n, hn⟩ ho0 ho1 hq hk (fun r => rowOf (s0, s1, s2) r) hm (bandLoad_apply c s2 ob inbb ⟨n, hn⟩ hb0 hb1))

/-- Head n's stores after a reset: its loads read the reset values through the earlier heads' stores. -/
theorem stepB (hL : Upto (fun r => rowStep false false qb kb r RowSt.reset) (fun _ => ⊥) (fun _ => 0) (fun _ => 0) n L0 L1 L2) :
    Upto (fun r => rowStep false false qb kb r RowSt.reset) (fun _ => ⊥) (fun _ => 0) (fun _ => 0) (n + 1)
      (⟨colR oc inbc, shapeCast S512x1 (pM o hs q k (scM0.view.readCov L0 (colR oc inbc).toLoadRect)) shapeCasts_S512x1_S512x1⟩ :: L0)
      (⟨colR oc inbc, shapeCast S512x1 (pL o hs q k (scM0.view.readCov L0 (colR oc inbc).toLoadRect)
        (scM1.view.readCov L1 (colR oc inbc).toLoadRect)) shapeCasts_S512x1_S512x1⟩ :: L1)
      (⟨bandR ob inbb, shapeCast S512x64 (pA o hs q k (scM0.view.readCov L0 (colR oc inbc).toLoadRect)
        (scM2.view.readCov L2 (bandR ob inbb).toLoadRect)) shapeCasts_S512x64_S512x64⟩ :: L2) :=
  have hm : ∀ r : Fin 512, scM0.view.readCov L0 (colR oc inbc).toLoadRect (ix2 r (0 : Fin 1)) = ⊥ := fun r =>
    (colCov_apply _ L0 oc inbc ⟨n, hn⟩ hc0 hc1 r).trans ((hL.m _).trans (if_neg (Nat.lt_irrefl n)))
  hL.step hn hc0 hc1 hb0 hb1 (pieceM ⟨n, hn⟩ ho0 ho1 hq hk (fun _ => RowSt.reset) hm)
    (pieceL ⟨n, hn⟩ ho0 ho1 hq hk (fun _ => RowSt.reset) hm fun r =>
      (colCov_apply _ L1 oc inbc ⟨n, hn⟩ hc0 hc1 r).trans ((hL.l _).trans (if_neg (Nat.lt_irrefl n))))
    (pieceA ⟨n, hn⟩ ho0 ho1 hq hk (fun _ => RowSt.reset) hm fun r d =>
      (bandCov_apply _ L2 ob inbb ⟨n, hn⟩ hb0 hb1 r d).trans ((hL.a _).trans (if_neg (Nat.not_lt.2 (Nat.le_add_right (64 * n) d.val)))))
end Steps

section Run
variable (c : Dev nD) (i : grid1.Coords)
  (arg4 : Memref sig .tc .vmem S1x512x1024 .bf16) (harg4 : arg4.IsWhole) (arg5 : Memref sig .tc .vmem S1x512x1024 .bf16) (harg5 : arg5.IsWhole)
  (arg6 : Memref sig .tc .vmem S1024x1024 .bf16) (harg6 : arg6.IsWhole) (arg7 : Memref sig .tc .vmem S1x1024 .f32) (harg7 : arg7.IsWhole)
  (arg8 : Memref sig .tc .vmem S1x512x1024 .f32) (harg8 : arg8.IsWhole)
  (x4 x5 : Vec Ideal S1x512x1024 .bf16) (x6 : Vec Ideal S1024x1024 .bf16) (x7 : Vec Ideal S1x1024 .f32)
  (xt0 : BufOf (F := Ideal) c tbM0) (xt1 : BufOf (F := Ideal) c tbM1)
  (h14 : cOff (wd0 (F := Ideal) c i xt0) (wd1 (F := Ideal) c i xt1)) (h3 : ¬ cDiag (wd0 (F := Ideal) c i xt0) (wd1 (F := Ideal) c i xt1))

/-- A plain update's sixteen heads, one after another, over nothing. -/
theorem runC (s0 s1 : Vec Ideal S512x16 .f32) (s2 : Vec Ideal S512x1024 .f32) (h7 : ¬ cInit (wd1 (F := Ideal) c i xt1)) :
    (fun W : PcsCol (F := Ideal) × PcsCol (F := Ideal) × PcsAcc (F := Ideal) =>
      Upto (fun r => rowStep false false (fun r e => x4 (ix3 (0 : Fin 1) r e)) (fun r e => x5 (ix3 (0 : Fin 1) r e)) r (rowOf (s0, s1, s2) r))
        (View.canon []) (View.canon []) (View.canon []) 16 W.1 W.2.1 W.2.2)
      (kernelRun1_C (F := Ideal) c i arg4 harg4 arg5 harg5 arg6 harg6 arg7 harg7 arg8 harg8 x4 x5 x6 x7 xt0 xt1 s0 s1 s2 h7 h14 h3).1 := by
  unfold kernelRun1_C
  dsimp only
  iterate 16
    refine stepC (c := c) (tileQ_apply arg4 harg4 x4) (tileK_apply arg5 harg5 x5) (by decide) (by rfl) (by rfl) (by rfl) (by rfl) (by rfl) (by rfl) ?_
  exact ⟨fun y => (if_neg (Nat.not_lt_zero _)).symm, fun y => (if_neg (Nat.not_lt_zero _)).symm, fun y => (if_neg (Nat.not_lt_zero _)).symm⟩

/-- The same over the reset's three stores. -/
theorem runB (h7 : cInit (wd1 (F := Ideal) c i xt1)) :
    (fun W : PcsCol (F := Ideal) × PcsCol (F := Ideal) × PcsAcc (F := Ideal) =>
      Upto (fun r => rowStep false false (fun r e => x4 (ix3 (0 : Fin 1) r e)) (fun r e => x5 (ix3 (0 : Fin 1) r e)) r RowSt.reset)
        (fun _ => ⊥) (fun _ => 0) (fun _ => 0) 16 W.1 W.2.1 W.2.2)
      (kernelRun1_B (F := Ideal) c i arg4 harg4 arg5 harg5 arg6 harg6 arg7 harg7 arg8 harg8 x4 x5 x6 x7 xt0 xt1 h7 h14 h3).1 := by
  unfold kernelRun1_B
  dsimp only
  iterate 16
    refine stepB (tileQ_apply arg4 harg4 x4) (tileK_apply arg5 harg5 x5) (by decide) (by rfl) (by rfl) (by rfl) (by rfl) (by rfl) (by rfl) ?_
  exact ⟨fun y => (congrFun (View.canon_unit_zero zeros2 _ _) y).trans ((reset0_apply y).trans (if_neg (Nat.not_lt_zero _)).symm),
    fun y => (congrFun (View.canon_unit_zero zeros2 _ _) y).trans ((reset1_apply y).trans (if_neg (Nat.not_lt_zero _)).symm),
    fun y => (congrFun (View.canon_unit_zero zeros2 _ _) y).trans ((reset2_apply y).trans (if_neg (Nat.not_lt_zero _)).symm)⟩
end Run

end PlainStep

variable (V : (c : Dev nD) → (b : Ref sig .tc) → Buf (Elt Ideal) ((c : Thread nD τ).loc b))

/-- A point that neither resets nor finishes takes each query row's statistics one plain step on. -/
theorem stepSt_row_C (c : Dev nD) (t : Fin cfgL.N) (s : St) (hI : ¬ isInit c t) (hD : ¬ isDiag c t) (r : Fin 512) :
    rowOf (stepSt V c t s) r = Cert.Attn.rowStep false false (qblk V c t) (kblk V c t) r (rowOf s r) := by
  rw [stepSt, dif_neg hI, dif_neg hD]
  exact (PlainStep.runC c (cfgL.grid.coords t) (ms0 t) (hs0 t) (ms1 t) (hs1 t) (ms2 t) (hs2 t) (ms3 t) (hs3 t) (ms4 t) (hs4 t)
    (iblk1 V c 0 t) (iblk1 V c 1 t) (iblk1 V c 2 t) (iblk1 V c 3 t) (tblLit 0) (tblLit 1) (off_of_notDiag hD) hD s.1 s.2.1 s.2.2 hI).row r

/-- A first key tile's point that does not finish takes each query row from the reset statistics one plain step on. -/
theorem stepSt_row_B (c : Dev nD) (t : Fin cfgL.N) (s : St) (hI : isInit c t) (hD : ¬ isDiag c t) (r : Fin 512) :
    rowOf (stepSt V c t s) r = Cert.Attn.rowStep true false (qblk V c t) (kblk V c t) r (rowOf s r) := by
  rw [stepSt, dif_pos hI, dif_neg hD, show rowStep true false (qblk V c t) (kblk V c t) r (rowOf s r) = rowStep false false (qblk V c t) (kblk V c t) r RowSt.reset from rfl]
  exact (PlainStep.runB c (cfgL.grid.coords t) (ms0 t) (hs0 t) (ms1 t) (hs1 t) (ms2 t) (hs2 t) (ms3 t) (hs3 t) (ms4 t) (hs4 t)
    (iblk1 V c 0 t) (iblk1 V c 1 t) (iblk1 V c 2 t) (iblk1 V c 3 t) (tblLit 0) (tblLit 1) (off_of_notDiag hD) hD hI).row r

end Cert.KernelIdeal.Hand

end
-- ==== Proof.KI1ValAD.lean ====
/- The attention kernel's body at a diagonal grid point, row by row: the masked online-softmax step of the row's statistics
   (of the reset statistics at a first key tile), the accumulator then normalised. -/
import proofs.«408594_j31722628448459_3_alg».proof.Proof.KI1ValHead

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attn Idealize.ShloMosaic.ValueIdx

local notation "FF" => Idealize.ShloMosaic.Ideal

section Runs
variable (c : Dev nD) (i : grid1.Coords)
  (arg4 : Memref sig .tc .vmem S1x512x1024 .bf16) (harg4 : arg4.IsWhole) (arg5 : Memref sig .tc .vmem S1x512x1024 .bf16) (harg5 : arg5.IsWhole)
  (arg6 : Memref sig .tc .vmem S1024x1024 .bf16) (harg6 : arg6.IsWhole) (arg7 : Memref sig .tc .vmem S1x1024 .f32) (harg7 : arg7.IsWhole)
  (arg8 : Memref sig .tc .vmem S1x512x1024 .f32) (harg8 : arg8.IsWhole)
  (x4 x5 : Vec FF S1x512x1024 .bf16) (x6 : Vec FF S1024x1024 .bf16) (x7 : Vec FF S1x1024 .f32)
  (xt0 : BufOf (F := FF) c tbM0) (xt1 : BufOf (F := FF) c tbM1)
  (h14 : ¬ cOff (wd0 (F := FF) c i xt0) (wd1 (F := FF) c i xt1)) (h3 : cDiag (wd0 (F := FF) c i xt0) (wd1 (F := FF) c i xt1))

section D
variable (s0 : BufOf (F := FF) c scM0) (s1 : BufOf (F := FF) c scM1) (s2 : BufOf (F := FF) c scM2) (h7 : ¬ cInit (wd1 (F := FF) c i xt1))

/-- A continuing diagonal point's sixteen heads leave the masked update of the statistics it found. -/
theorem runD_upd : Upd x4 x5 s0 s1 (View.canon []) (View.canon []) s2 (View.canon []) 16
    (kernelRun1_D (F := FF) c i arg4 harg4 arg5 harg5 arg6 harg6 arg7 harg7 arg8 harg8 x4 x5 x6 x7 xt0 xt1 s0 s1 s2 h7 h14 h3).1.2.1
    (kernelRun1_D.sl.HS1_16 (F := FF) c arg4 harg4 arg5 harg5 x4 x5 s0 s1) (kernelRun1_D.sl.HS2_16 (F := FF) c arg4 harg4 arg5 harg5 x4 x5 s0 s2) := by
  unfold kernelRun1_D
  dsimp only
  iterate 16 refine Upd.stepD c arg4 harg4 arg5 harg5 x4 x5 s0 s1 s2 (by decide) ?_
  exact Upd.base x4 x5 (fun _ => rfl) (fun _ => rfl) fun _ => rfl

/-- Its sixteen normalisation stores then leave the normalised sums. -/
theorem runD_acc {L0 : List (View.Piece (Elt FF) S512x16 .f32)} {z0 z1 : Vec FF S512x16 .f32} {z2 : Vec FF S512x1024 .f32}
    (H : Upd x4 x5 s0 s1 z0 z1 s2 z2 16 L0 (kernelRun1_D.sl.HS1_16 (F := FF) c arg4 harg4 arg5 harg5 x4 x5 s0 s1)
      (kernelRun1_D.sl.HS2_16 (F := FF) c arg4 harg4 arg5 harg5 x4 x5 s0 s2)) :
    Nrm (FA x4 x5 s0 s2) (FL x4 x5 s0 s1) 16 (kernelRun1_D.sl.HS2_32 (F := FF) c arg4 harg4 arg5 harg5 x4 x5 s0 s1 s2) := by
  iterate 16 refine Nrm.step (by decide) (fun y => (inv_whole _ _ y).trans (congrArg _ ((Upd.done x4 x5 H).2.1 y))) ?_
  exact fun y => ((Upd.done x4 x5 H).2.2 y).trans (if_neg (Nat.not_lt_zero _)).symm

end D

section A
variable (h7 : cInit (wd1 (F := FF) c i xt1))

/-- A first diagonal point's sixteen heads leave the masked update of the reset statistics. -/
theorem runA_upd : Upd x4 x5 botC zeroC botC zeroC zeroA zeroA 16
    (kernelRun1_A (F := FF) c i arg4 harg4 arg5 harg5 arg6 harg6 arg7 harg7 arg8 harg8 x4 x5 x6 x7 xt0 xt1 h7 h14 h3).1.2.1
    (kernelRun1_A.sl.HS1_17 (F := FF) c arg4 harg4 arg5 harg5 x4 x5) (kernelRun1_A.sl.HS2_17 (F := FF) c arg4 harg4 arg5 harg5 x4 x5) := by
  unfold kernelRun1_A
  dsimp only
  iterate 16 refine Upd.stepA arg4 harg4 arg5 harg5 x4 x5 (by decide) ?_
  exact Upd.base x4 x5 (fun y => (wholeCanon16 _ y).trans (reset0_apply y)) (fun y => (wholeCanon16 _ y).trans (reset1_apply y))
    fun y => (wholeCanon1024 _ y).trans (reset2_apply y)

/-- Its sixteen normalisation stores then leave the normalised sums. -/
theorem runA_acc {L0 : List (View.Piece (Elt FF) S512x16 .f32)} {z0 z1 : Vec FF S512x16 .f32} {z2 : Vec FF S512x1024 .f32}
    (H : Upd x4 x5 botC zeroC z0 z1 zeroA z2 16 L0 (kernelRun1_A.sl.HS1_17 (F := FF) c arg4 harg4 arg5 harg5 x4 x5)
      (kernelRun1_A.sl.HS2_17 (F := FF) c arg4 harg4 arg5 harg5 x4 x5)) :
    Nrm (FA x4 x5 botC zeroA) (FL x4 x5 botC zeroC) 16 (kernelRun1_A.sl.HS2_33 (F := FF) c arg4 harg4 arg5 harg5 x4 x5) := by
  iterate 16 refine Nrm.step (by decide) (fun y => (inv_whole _ _ y).trans (congrArg _ ((Upd.done x4 x5 H).2.1 y))) ?_
  exact fun y => ((Upd.done x4 x5 H).2.2 y).trans (if_neg (Nat.not_lt_zero _)).symm

end A

end Runs

section Main
variable (V : (c : Dev nD) → (b : Ref sig .tc) → Buf (Elt FF) ((c : Thread nD τ).loc b))

/-- A later diagonal point takes a row's statistics through the masked step and normalises the accumulator. -/
theorem stepSt_row_D (c : Dev nD) (t : Fin cfgL.N) (s : St) (hI : ¬ isInit c t) (hD : isDiag c t) (r : Fin 512) :
    rowOf (stepSt V c t s) r = Cert.Attn.rowStep false true (qblk V c t) (kblk V c t) r (rowOf s r) := by
  have H := runD_upd c (cfgL.grid.coords t) (ms0 t) (hs0 t) (ms1 t) (hs1 t) (ms2 t) (hs2 t) (ms3 t) (hs3 t) (ms4 t) (hs4 t)
    (iblk1 V c 0 t) (iblk1 V c 1 t) (iblk1 V c 2 t) (iblk1 V c 3 t) (tblLit 0) (tblLit 1) (notOff_of_diag hD) hD s.1 s.2.1 s.2.2 hI
  rw [stepSt, dif_neg hI, dif_pos hD]
  unfold rowOf rowStep
  simp only [Bool.false_eq_true, ↓reduceIte]
  rw [RowSt.mk.injEq]
  exact ⟨funext fun h => (Upd.done _ _ H).1 (ix2 r h), funext fun h => (Upd.done _ _ H).2.1 (ix2 r h),
    funext fun e => (runD_acc c _ _ _ _ _ _ _ _ _ H (ix2 r e)).trans (if_pos e.isLt)⟩

/-- A first diagonal point does the same from the reset statistics. -/
theorem stepSt_row_A (c : Dev nD) (t : Fin cfgL.N) (s : St) (hI : isInit c t) (hD : isDiag c t) (r : Fin 512) :
    rowOf (stepSt V c t s) r = Cert.Attn.rowStep true true (qblk V c t) (kblk V c t) r (rowOf s r) := by
  have H := runA_upd c (cfgL.grid.coords t) (ms0 t) (hs0 t) (ms1 t) (hs1 t) (ms2 t) (hs2 t) (ms3 t) (hs3 t) (ms4 t) (hs4 t)
    (iblk1 V c 0 t) (iblk1 V c 1 t) (iblk1 V c 2 t) (iblk1 V c 3 t) (tblLit 0) (tblLit 1) (notOff_of_diag hD) hD hI
  rw [stepSt, dif_pos hI, dif_pos hD]
  unfold rowOf rowStep
  simp only [↓reduceIte]
  rw [RowSt.mk.injEq]
  exact ⟨funext fun h => (Upd.done _ _ H).1 (ix2 r h), funext fun h => (Upd.done _ _ H).2.1 (ix2 r h),
    funext fun e => (runA_acc c _ _ _ _ _ _ H (ix2 r e)).trans (if_pos e.isLt)⟩

end Main

end Cert.KernelIdeal.Hand

end
-- ==== Proof.KI1ValOut.lean ====
/- What a finishing point stores: the output projection of the accumulator it leaves, plus the bias. -/
import proofs.«408594_j31722628448459_3_alg».proof.Proof.KI1ValHead
import Idealize.ShloMosaic.Lib.ValueLayout

noncomputable section

namespace Cert.KernelIdeal.Hand

open Cert.KernelIdeal Cert.KernelIdeal.Gen Idealize.ShloMosaic Idealize.ShloMosaic.TcCoe Idealize.SL.Sem
open Cert.Attn Idealize.ShloMosaic.ValueIdx

local notation "FF" => Idealize.ShloMosaic.Ideal

variable (V : (c : Dev nD) → (b : Ref sig .tc) → Buf (Elt Ideal) ((c : Thread nD τ).loc b))

/-- The tile a finishing point stores, as a function of the accumulator pieces L. -/
def outPiece (c : Dev nD) (t : Fin cfgL.N) (L : List (View.Piece (Elt FF) S512x1024 .f32)) : View.Piece (Elt FF) S1x512x1024 .f32 :=
  ⟨Rect.unit (s := S1x512x1024) ![0, 0, 0] S1x512x1024.size inb_S1x512x1024_S1x512x1024_0_0_0,
    k1_pay9 (k1_pay307 (scM2.view.readCov L (Rect.unit (s := S512x1024) ![0, 0] S512x1024.size inb_S512x1024_S512x1024_0_0).toLoadRect))
      (k1_pay308 (View.readAt (Elt FF) (ms2 t).view (Rect.unit (s := S1024x1024) ![0, 0] S1024x1024.size inb_S1024x1024_S1024x1024_0_0).toLoadRect ((hs2 t).unread (iblk1 V c 2 t))))
      (constant S512x1024 .f32 0x00000000#32)
      (View.readAt (Elt FF) (ms3 t).view (Rect.unit (s := S1x1024) ![0, 0] S1x1024.size inb_S1x1024_S1x1024_0_0).toLoadRect ((hs3 t).unread (iblk1 V c 3 t)))⟩

theorem readCov_whole (L : List (View.Piece (Elt FF) S512x1024 .f32)) :
    scM2.view.readCov L (Rect.unit (s := S512x1024) ![0, 0] S512x1024.size inb_S512x1024_S512x1024_0_0).toLoadRect = View.canon L := by
  rw [View.readCov_eq_canon']
  exact View.ld_unit_zero (S := S512x1024) zeros2 inb_S512x1024_S512x1024_0_0 (View.canon L)

/-- At row r and feature e it holds the sum over d of L's canonical contents at (r, d) times the weight at (e, d), plus the bias at e. -/
theorem out_of_lists (c : Dev nD) (t : Fin cfgL.N) (L : List (View.Piece (Elt FF) S512x1024 .f32)) (r : Fin 512) (e : Fin 1024) :
    View.canon [outPiece V c t L] (ix3 (0 : Fin 1) r e) = outE (fun d => View.canon L (ix2 r d)) (woblk V c t) (boblk V c t) e := by
  rw [outPiece, View.canon_unit_zero zeros3]
  unfold k1_pay9 k1_pay307 k1_pay308
  dsimp only
  rw [shapeCast_ab_1ab_apply, addf_apply, matO_apply, broadcastTo_1b_ab_apply, shapeCast_self, shapeCast_self,
    View.readAt_eq_ld, (hs2 t).read_unread, View.ld_unit_zero (S := S1024x1024) zeros2,
    View.readAt_eq_ld, (hs3 t).read_unread, View.ld_unit_zero (S := S1x1024) zeros2,
    readCov_whole]
  rfl

theorem runA_out (c : Dev nD) (t : Fin cfgL.N) (hI : isInit c t) (hD : isDiag c t) :
    (runA V c t hI hD).1.1 = [outPiece V c t (runA V c t hI hD).1.2.2.2] := rfl
theorem runD_out (c : Dev nD) (t : Fin cfgL.N) (s : St) (hI : ¬ isInit c t) (hD : isDiag c t) :
    (runD V c t s hI hD).1.1 = [outPiece V c t (runD V c t s hI hD).1.2.2.2] := rfl

/-- The stored tile is the projection of the point's final accumulator, plus the bias. -/
theorem outAt_row (c : Dev nD) (t : Fin cfgL.N) (hD : isDiag c t) (r : Fin 512) (e : Fin 1024) :
    outAt V c t (ix3 (0 : Fin 1) r e)
      = outE (fun d => (stepSt V c t (stAt V c t.val)).2.2 (ix2 r d)) (woblk V c t) (boblk V c t) e := by
  by_cases hI : isInit c t
  · rw [outAt, dif_pos hI, dif_pos hD, stepSt, dif_pos hI, dif_pos hD, runA_out]
    exact out_of_lists V c t _ r e
  · rw [outAt, dif_neg hI, dif_pos hD, stepSt, dif_neg hI, dif_pos hD, runD_out]
    exact out_of_lists V c t _ r e

end Cert.KernelIdeal.Hand

end
-- ==== Proof.KIVal0.lean ====
/- The first call's result array: at (r, e) the sum over d of x[r, d] · W[e, d], the eight row blocks covering it. -/
import proofs.«408594_j31722628448459_3_alg».proof.Proof.KI0
import proofs.«408594_j31722628448459_3_alg».proof.Proof.KI1ValHead
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx

/-- The stored block at (p, e), over any two input blocks: the sum over d of x0[p, d] · x1[e, d]. -/
theorem qproj_out_apply (x0 : Vec Ideal S512x1024 .f32) (x1 : Vec Ideal S1024x1024 .f32) (p : Fin 512) (e : Fin 1024) :
    out0 (F := Ideal) x0 x1 (ix2 p e) = ∑ d : Fin 1024, x0 (ix2 p d) * x1 (ix2 e d) := by
  unfold out0
  rw [View.canon_unit_zero zeros2]
  unfold k0_pay1
  rw [truncf_apply, matO_apply]
  refine Finset.sum_congr rfl fun d _ => ?_
  rw [truncf_apply, truncf_apply, shapeCast_self, View.ld_unit_zero (S := S512x1024) zeros2, View.ld_unit_zero (S := S1024x1024) zeros2]

variable (V : (c : Dev nD) → (b : Ref sig .tc) → Buf (Elt Ideal) ((c : Thread nD τ).loc b))

/-- The block indices over the 8 points: row block t for the activations and the result, block (0, 0) for the weight. -/
theorem qproj_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row r of the activations against row e of the weight. -/
def Qarr (V : (c : Dev nD) → (b : Ref sig .tc) → Buf (Elt Ideal) ((c : Thread nD τ).loc b)) (c : Dev nD) : S4096x1024.Idx → EReal :=
  fun j => ∑ d : Fin 1024, @HMul.hMul EReal EReal EReal instHMul (V c main_v0 (ix2 (j 0) d)) (V c main_arg1 (ix2 (j 1) d))

/-- Point t's block is block t of Qarr. -/
theorem qproj_flushed_eq (c : Dev nD) (t : Fin cfg0.N) :
    (dat0 (F := Ideal) V c).flushed 2 t = ((cfg0.win 2).blk t).view.read (Elt Ideal) (Qarr V c) := by
  obtain ⟨e0, e1, e2, e3, e4, e5⟩ := qproj_idx_facts t
  show (cfg0.win 2).cut (grid0.coords t) ((dat0 (F := Ideal) V c).after 2 t) = _
  rw [after0_2]
  funext j
  obtain ⟨p, e, rfl⟩ : ∃ (p : Fin 512) (e : Fin 1024), j = ix2 p e := ⟨j 0, j 1, eq_ix2 j⟩
  show out0 (F := Ideal) (iblk0 V c 0 t) (iblk0 V c 1 t) (ix2 p e) = Qarr V c (((cfg0.win 2).blk t).view.emb (ix2 p e))
  rw [qproj_out_apply]
  unfold Qarr iblk0
  refine Finset.sum_congr rfl fun d _ => ?_
  rw [View.read_apply, View.read_apply]
  show @HMul.hMul EReal EReal EReal instHMul (V c main_v0 _) (V c main_arg1 _) = _
  refine congrArg₂ (@HMul.hMul EReal EReal EReal instHMul) (congrArg (V c main_v0) (Shape.idx_ext₂ ?_ ?_))
    (congrArg (V c main_arg1) (Shape.idx_ext₂ ?_ ?_))
  · show win0_0.index t 0 * 512 + 1 * p.val = win0_2.index t 0 * 512 + 1 * p.val; rw [e0, e4]
  · show win0_0.index t 1 * 1024 + 1 * d.val = d.val; rw [e1]; omega
  · show win0_1.index t 0 * 1024 + 1 * e.val = win0_2.index t 1 * 1024 + 1 * e.val; rw [e2, e5]
  · show win0_1.index t 1 * 1024 + 1 * d.val = d.val; rw [e3]; omega

/-- Row r lies in the block of point r / 512. -/
theorem qproj_cover (i : S4096x1024.Idx) :
    ∃ t : Fin cfg0.N, (cfg0.win 2).flush t = true ∧ i ∈ ((cfg0.win 2).blk t).view.set := by
  have hi0 : (i 0).val < 4096 := (i 0).isLt
  obtain ⟨t, ht⟩ : ∃ t : Fin cfg0.N, t.val = (i 0).val / 512 := ⟨⟨(i 0).val / 512, by have : cfg0.N = 8 := N_0; omega⟩, rfl⟩
  obtain ⟨-, -, -, -, e4, e5⟩ := qproj_idx_facts t
  refine ⟨t, flush0_2 t, ?_⟩
  rw [show i = ((cfg0.win 2).blk t).view.emb (ix2 ⟨(i 0).val % 512, Nat.mod_lt _ (by decide)⟩ (i 1)) from Shape.idx_ext₂
    (by show _ = win0_2.index t 0 * 512 + 1 * ((i 0).val % 512); rw [e4, ht]; omega)
    (by show _ = win0_2.index t 1 * 1024 + 1 * (i 1).val; rw [e5]; omega)]
  exact View.emb_mem_set _ _

/-- So the call leaves Qarr in the result array. -/
theorem q_array (c : Dev nD) : (dat0 (F := Ideal) V c).arrAt 2 cfg0.N = Qarr V c :=
  (dat0 (F := Ideal) V c).arrAt_eq_of_cover 2 (Qarr V c) (fun t _ => qproj_flushed_eq V c t) qproj_cover

end Cert.KernelIdeal.Hand

end
-- ==== Proof.KIEntry.lean ====
/- What the second call's arrays hold at its entry, in terms of the program's arguments: the query projection of the
   activations, the output weight, the bias. -/
import proofs.«408594_j31722628448459_3_alg».proof.Proof.KIRunA
import proofs.«408594_j31722628448459_3_alg».proof.Proof.KIVal0
import proofs.«408594_j31722628448459_3_alg».proof.Proof.Gen.KernelIdeal.Regions
import proofs.«408594_j31722628448459_3_alg».proof.Proof.Spec
import Idealize.ShloMosaic.Lib.StableHlo.Run
import Idealize.ShloMosaic.Lib.ValueLayout

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- What the first host operations do not write is unchanged after them. -/
theorem entry_W1_kept (c : Dev nD) (r : Ref sig .tc) (h : r ∉ hostOps0_W) :
    W1 m ρ c (Proc.devRef .tc r) = m ((c : Thread nD τ).loc r) :=
  (StableHlo.after_of_writes_sub hostOps0 _ hostOps0_writes h).trans rfl

/-- The same after the first call, for what is none of its arrays. -/
theorem entry_W2_kept (c : Dev nD) (r : Ref sig .tc) (h : r ∉ hostOps0_W) (hw : ∀ w, Pipeline.arrRef spec0 w ≠ r) :
    W2 m ρ c (Proc.devRef .tc r) = m ((c : Thread nD τ).loc r) :=
  (W2_of_ne m ρ c r hw).trans (entry_W1_kept m ρ c r h)

/-- At the second call's entry the query array holds x · Wqᵀ. -/
theorem V3_main_v2 (c : Dev nD) (b : Fin 2) (s : Fin 2048) (e : Fin 1024) :
    (V3 m ρ c main_v2 : S2x2048x1024.Idx → EReal) (ix3 b s e)
      = Cert.Attn.qp
          (fun b s d => (m ((c : Thread nD τ).loc main_arg0) : S2x2048x1024.Idx → EReal) (ix3 b s d) : Fin 2 → Fin 2048 → Fin 1024 → EReal)
          (fun e d => (m ((c : Thread nD τ).loc main_arg1) : S1024x1024.Idx → EReal) (ix2 e d) : Fin 1024 → Fin 1024 → EReal) b s e := by
  have hr : 2048 * b.val + s.val < 4096 := by omega
  have hx : (V1 m ρ c main_v0 : S4096x1024.Idx → EReal)
      = shapeCast S4096x1024 (m ((c : Thread nD τ).loc main_arg0) : S2x2048x1024.Idx → EReal) shapeCasts_S2x2048x1024_S4096x1024 := by
    show StableHlo.after hostOps0 (W0 m ρ c) (Proc.devRef .tc main_v0) = _
    after_results
    rfl
  have h : (V3 m ρ c main_v2 : S2x2048x1024.Idx → EReal)
      = shapeCast S2x2048x1024 (W2 m ρ c (Proc.devRef .tc main_v1) : S4096x1024.Idx → EReal) shapeCasts_S4096x1024_S2x2048x1024 := by
    show StableHlo.after hostOps1 (W2 m ρ c) (Proc.devRef .tc main_v2) = _
    after_results
    rfl
  refine (congrFun h _).trans ((shapeCast_apply _ _ _ (ix2 ⟨2048 * b.val + s.val, hr⟩ e) (by
    rw [Shape.rowMajor_val_two, Shape.rowMajor_val_three]
    show (2048 * b.val + s.val) * 1024 + e.val = (b.val * 2048 + s.val) * 1024 + e.val
    omega)).trans ((congrFun ((W2_arr m ρ c 2).trans (q_array (V1 m ρ) c)) _).trans
      (?_ : Qarr (V1 m ρ) c (ix2 ⟨2048 * b.val + s.val, hr⟩ e) = _)))
  exact Finset.sum_congr rfl fun d _ => congrArg₂ (@HMul.hMul EReal EReal EReal instHMul)
    ((congrFun hx _).trans (shapeCast_apply _ _ _ (ix3 b s d) (by
      rw [Shape.rowMajor_val_three, Shape.rowMajor_val_two]
      show (b.val * 2048 + s.val) * 1024 + d.val = (2048 * b.val + s.val) * 1024 + d.val
      omega))) (congrFun (entry_W1_kept m ρ c main_arg1 (by decide)) (ix2 e d))

/-- Over the reals the narrowed output weight is the output weight. -/
theorem V3_main_v3 (c : Dev nD) (e d : Fin 1024) :
    (V3 m ρ c main_v3 : S1024x1024.Idx → EReal) (ix2 e d) = (m ((c : Thread nD τ).loc main_arg2) : S1024x1024.Idx → EReal) (ix2 e d) := by
  have h : (V3 m ρ c main_v3 : S1024x1024.Idx → EReal)
      = truncf (F := Ideal) .bf16 (W2 m ρ c (Proc.devRef .tc main_arg2) : FVec Ideal S1024x1024 .f32) bitsLt_bf16_f32 := by
    show StableHlo.after hostOps1 (W2 m ρ c) (Proc.devRef .tc main_v3) = _
    after_results
  exact (congrFun h _).trans (congrFun (entry_W2_kept m ρ c main_arg2 (by decide) (by decide)) _)

/-- The bias as a 1 × 1024 array. -/
theorem V3_main_v4 (c : Dev nD) (e : Fin 1024) :
    (V3 m ρ c main_v4 : S1x1024.Idx → EReal) (ix2 (0 : Fin 1) e) = (m ((c : Thread nD τ).loc main_arg3) : S1024.Idx → EReal) (ValueIdx.ix1 e) := by
  have h : (V3 m ρ c main_v4 : S1x1024.Idx → EReal)
      = shapeCast S1x1024 (W2 m ρ c (Proc.devRef .tc main_arg3) : S1024.Idx → EReal) shapeCasts_S1024_S1x1024 := by
    show StableHlo.after hostOps1 (W2 m ρ c) (Proc.devRef .tc main_v4) = _
    after_results
    rfl
  exact (congrFun h _).trans ((shapeCast_a_1a_apply _ _ 0 e).trans (congrFun (entry_W2_kept m ρ c main_arg3 (by decide) (by decide)) _))

end Cert.KernelIdeal.Hand

end
-- ==== Proof.PreFinite.lean ====
/- The precondition makes every entry of the activations and of the query weight a real number. -/
import proofs.«408594_j31722628448459_3_alg».proof.Defs
import proofs.«408594_j31722628448459_3_alg».proof.Proof.Gen.Pre_finite_inputs
import proofs.«408594_j31722628448459_3_alg».proof.Proof.Fold
import Idealize.ShloMosaic.Lib.ReduceAll
import Idealize.ShloMosaic.Lib.ValueIdx

noncomputable section

namespace Cert.PreFinite

open Idealize.ShloMosaic Idealize.ShloMosaic.ValueIdx Idealize.SL.Sem Cert.KernelIdeal

instance : Subsingleton Cert.Pre_finite_inputs.S_.Idx := ⟨fun a b => funext fun d => d.elim0⟩

/-- |x| < +∞ fails at both infinities, whose absolute value is +∞. -/
theorem real_of_abs_lt_inf {x : EReal} (h : Ideal.cmp .olt (max x (-x)) (Ideal.ofBits .f32 0x7F800000#32) = 1#1) :
    x ≠ ⊤ ∧ x ≠ ⊥ := by
  have hi : Ideal.ofBits .f32 0x7F800000#32 = ⊤ := by simp [Ideal.ofBits, Ideal.ieee]
  rw [hi] at h
  induction x using EReal.rec with
  | coe r => exact ⟨EReal.coe_ne_top r, EReal.coe_ne_bot r⟩
  | _ => simp [Ideal.cmp] at h

/-- The precondition is a conjunction of all-reductions of |entry| < +∞, one per argument. -/
theorem finite_of_pre (m : (ℓ : Loc nD τ sig) → Buf (Elt Ideal) ℓ)
    (h : Cert.Pre_KernelIdeal (hPre_finite_inputs := Cert.Pre_finite_inputs.Gen.facts) m) (c : Dev nD) :
    Cert.Attn.Finite3 (fun b s d => m ((c.tc : Thread nD τ).loc main_arg0) (ix3 b s d))
    ∧ Cert.Attn.Finite2 (fun e d => m ((c.tc : Thread nD τ).loc main_arg1) (ix2 e d)) := by
  have h0 := congrFun (h c) ix0
  dsimp only [Cert.Pre_finite_inputs.fn, Cert.Pre_finite_inputs.fn_part1] at h0
  obtain ⟨hx, hw⟩ := IntOp.andi_eq_one.1 (IntOp.andi_eq_one.1 (IntOp.andi_eq_one.1 h0).1).1
  exact ⟨fun b s d => real_of_abs_lt_inf (Host.reduce_andi_all _ _ _ _ ix0 hx (ix3 b s d)),
    fun e d => real_of_abs_lt_inf (Host.reduce_andi_all _ _ _ _ ix0 hw (ix2 e d))⟩

end Cert.PreFinite

end
-- ==== Proof.KIResult.lean ====
/- The attention call's result array is the specification's result of the program's four arguments. -/
import proofs.«408594_j31722628448459_3_alg».proof.Proof.KIFrame
import proofs.«408594_j31722628448459_3_alg».proof.Proof.KI1Value
import proofs.«408594_j31722628448459_3_alg».proof.Proof.KI1ValBC
import proofs.«408594_j31722628448459_3_alg».proof.Proof.KI1ValAD
import proofs.«408594_j31722628448459_3_alg».proof.Proof.KI1ValOut
import proofs.«408594_j31722628448459_3_alg».proof.Proof.KIEntry
import proofs.«408594_j31722628448459_3_alg».proof.Proof.PreFinite

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The second call's result is G of the four arguments. -/
theorem result_eq_G (hpre : Cert.Pre_KernelIdeal (hPre_finite_inputs := Cert.Pre_finite_inputs.Gen.facts) m) (c : Dev nD) :
    (dat1 (V3 m ρ) c).arrAt 4 cfgL.N
      = Cert.Attn.G (m ((c.tc : Thread nD τ).loc main_arg0)) (m ((c.tc : Thread nD τ).loc main_arg1))
          (m ((c.tc : Thread nD τ).loc main_arg2)) (m ((c.tc : Thread nD τ).loc main_arg3)) := by
  obtain rfl := dev0 c
  have hf := Cert.PreFinite.finite_of_pre m hpre 0
  exact arr_final (V3 m ρ) _ _ _ _ hf.1 hf.2 (V3_main_v2 m ρ 0) (V3_main_v3 m ρ 0) (V3_main_v4 m ρ 0)
    (fun t s r => by
      by_cases hI : isInit (0 : Dev nD) t <;> by_cases hD : isDiag (0 : Dev nD) t
      · rw [decide_eq_true hI, decide_eq_true hD]; exact stepSt_row_A (V3 m ρ) 0 t s hI hD r
      · rw [decide_eq_true hI, decide_eq_false hD]; exact stepSt_row_B (V3 m ρ) 0 t s hI hD r
      · rw [decide_eq_false hI, decide_eq_true hD]; exact stepSt_row_D (V3 m ρ) 0 t s hI hD r
      · rw [decide_eq_false hI, decide_eq_false hD]; exact stepSt_row_C (V3 m ρ) 0 t s hI hD r)
    (outAt_row (V3 m ρ) 0)

end Cert.KernelIdeal.Hand

end
-- ==== Proof.RefRead.lean ====
/- The reference program's run and its operations read at an index, as generated. -/
import proofs.«408594_j31722628448459_3_alg».proof.Proof.Gen.ReferenceIdeal.Run
import proofs.«408594_j31722628448459_3_alg».proof.Proof.Gen.ReferenceIdeal.Read
-- ==== Proof.RefValue.lean ====
/- The reference program, read one operation at a time at an index, computes the specification. -/
import proofs.«408594_j31722628448459_3_alg».proof.Proof.RefRead
import proofs.«408594_j31722628448459_3_alg».proof.Proof.Spec
import Idealize.ShloMosaic.Lib.StableHlo.Predicate

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Attn

theorem ofBits_neg_inf : Ideal.ofBits .f32 0xFF800000#32 = (⊥ : EReal) := by
  simp [Ideal.ofBits, Ideal.ieee]

theorem ofBits_eight : Ideal.ofBits .f32 0x41000000#32 = ((8 : ℝ) : EReal) := by
  simp [Ideal.ofBits, Ideal.ieee, -EReal.coe_mul]; norm_num

/-- A feature's place inside its head. -/
def lane (e : Fin 1024) : Fin 64 := ⟨e.val % 64, by omega⟩

theorem col_headOf_lane (e : Fin 1024) : col (headOf e) (lane e) = e :=
  Fin.ext (by show 64 * (e.val / 64) + e.val % 64 = e.val; omega)

/-- Cutting the 1024 features into 16 heads of 64 reads feature 64 h + d. -/
theorem idx1 (j : S2x2048x16x64.Idx) : idx_main_v1 j = ix3 (j 0) (j 1) (col (j 2) (j 3)) := by
  have h0 : (j 0).val < 2 := (j 0).isLt
  have h1 : (j 1).val < 2048 := (j 1).isLt
  have h2 : (j 2).val < 16 := (j 2).isLt
  have h3 : (j 3).val < 64 := (j 3).isLt
  funext a
  fin_cases a <;> (apply Fin.ext; dsimp only [idx_main_v1, ix3, col]; omega)

/-- Joining the heads back reads head e / 64 at place e % 64. -/
theorem idx22 (i : S2x2048x1024.Idx) : idx_main_v22 i = ix4 (i 0) (i 1) (headOf (i 2)) (lane (i 2)) := by
  have h0 : (i 0).val < 2 := (i 0).isLt
  have h1 : (i 1).val < 2048 := (i 1).isLt
  have h2 : (i 2).val < 1024 := (i 2).isLt
  funext a
  fin_cases a <;> (apply Fin.ext; dsimp only [idx_main_v22, ix4, headOf, lane]; omega)

/-- The mask bit is set exactly for a key after the query. -/
theorem v5_at (i : S2048x2048.Idx) : val_main_v5 (F := Ideal) i = if (i 0).val < (i 1).val then 1#1 else 0#1 := by
  have hs : (i 0).val < 2048 := (i 0).isLt
  have hk : (i 1).val < 2048 := (i 1).isLt
  have hiff : IntOp.cmpi .sge (BitVec.ofNat 32 (i 0).val + 0#32) (BitVec.ofNat 32 (i 1).val) = 1#1 ↔ (i 1).val ≤ (i 0).val := by
    rw [BitVec.add_zero]; exact Predicate.sle_ofNat_iff _ _ (by omega) (by omega)
  show Scalar.select (IntOp.cmpi .sge (BitVec.ofNat 32 (i 0).val + 0#32) (BitVec.ofNat 32 (i 1).val)) 0#1 1#1 = _
  by_cases hsk : (i 0).val < (i 1).val
  · rw [if_pos hsk, eq_zero_of_ne_one fun h1 => hsk.not_ge (hiff.mp h1), select_zero]
  · rw [if_neg hsk, hiff.mpr (not_lt.mp hsk), select_one]

theorem select_ite {α : Type} (p : Prop) [Decidable p] (A B : α) :
    Scalar.select (if p then 1#1 else 0#1) A B = if p then A else B := by
  by_cases hp : p
  · rw [if_pos hp, if_pos hp, select_one]
  · rw [if_neg hp, if_neg hp, select_zero]

theorem reduces_keys : S2x16x2048x2048.Reduces [3] S2x16x2048 := by decide

section Stages

variable (x0 : (⟨S2x2048x1024, .f32⟩ : BufTy).Contents (Elt Ideal)) (x1 x2 : (⟨S1024x1024, .f32⟩ : BufTy).Contents (Elt Ideal))
  (x3 : (⟨S1024, .f32⟩ : BufTy).Contents (Elt Ideal))

/-- The activations and a weight matrix by coordinates. -/
abbrev X : Fin 2 → Fin 2048 → Fin 1024 → EReal := fun b s d => x0 (ix3 b s d)
abbrev Wt (w : (⟨S1024x1024, .f32⟩ : BufTy).Contents (Elt Ideal)) : Fin 1024 → Fin 1024 → EReal := fun e d => w (ix2 e d)

theorem v0_at (i : S2x2048x1024.Idx) : val_main_v0 (F := Ideal) x0 x1 i = qp (X x0) (Wt x1) (i 0) (i 1) (i 2) := by
  rw [val_main_v0_apply]
  refine Finset.sum_congr rfl fun d _ => ?_
  rw [eq_ix3 (lidx_main_v0 i d), eq_ix2 (ridx_main_v0 i d)]
  rfl

theorem v2_at (i : S2x16x2048x64.Idx) :
    val_main_v2 (F := Ideal) x0 x1 i = qp (X x0) (Wt x1) (i 0) (i 2) (col (i 1) (i 3)) := by
  rw [val_main_v2_apply, val_main_v1_apply, idx1]
  exact v0_at x0 x1 _

theorem v3_at (i : S2x16x2048x2048.Idx) :
    val_main_v3 (F := Ideal) x0 x1 i = score (X x0) (Wt x1) (i 0) (i 1) (i 2) (i 3) := by
  rw [val_main_v3_apply]
  refine Finset.sum_congr rfl fun d _ => ?_
  rw [v2_at, v2_at]
  rfl

theorem v8_at (i : S2x16x2048x2048.Idx) :
    val_main_v8 (F := Ideal) x0 x1 i = logit (X x0) (Wt x1) (i 0) (i 1) (i 2) (i 3) := by
  rw [val_main_v8_apply, val_main_v6_apply, val_main_call1_v1_apply, v5_at,
    val_main_call1_v2_apply, val_main_call1_v0_apply, val_main_cst_apply, v3_at, select_ite, val_main_v7_apply,
    val_main_cst_0_apply, Ideal.hostDivf_def, Ideal.ofBits_def, ofBits_neg_inf, Ideal.ofBits_def, ofBits_eight]
  rfl

/-- The row maximum is a fold of the maximum from -∞ over the key positions. -/
theorem v11_at (i : S2x16x2048.Idx) :
    val_main_v11 (F := Ideal) x0 x1 i = rowMax (X x0) (Wt x1) (i 0) (i 1) (i 2) := by
  have hf : (val_main_v8 (F := Ideal) x0 x1 ∘ reduces_keys.lift i)
      = fun k : Fin 2048 => logit (X x0) (Wt x1) (i 0) (i 1) (i 2) k :=
    funext fun k => v8_at x0 x1 (reduces_keys.lift i k)
  rw [val_main_v11_apply, val_main_v10_apply, val_main_cst_2_apply, Ideal.maximumf_def, Ideal.ofBits_def, ofBits_neg_inf,
    max_bot_left]
  unfold val_main_v9
  refine (Host.reduce_eq_fold_single (α := Ideal .f32) (s := S2x16x2048x2048) (t := S2x16x2048) (a := 3) (u := S_)
    FloatOps.maximumf (val_main_v8 (F := Ideal) x0 x1) (val_main_cst_1 (F := Ideal))
    reducesTo_S2x16x2048x2048_S2x16x2048_d3 reduces_keys h_S_ i).trans ?_
  rw [hf, val_main_cst_1_apply, Ideal.ofBits_def, ofBits_neg_inf]
  rfl

theorem v15_at (i : S2x16x2048x2048.Idx) :
    val_main_v15 (F := Ideal) x0 x1 i = expo (X x0) (Wt x1) (i 0) (i 1) (i 2) (i 3) := by
  rw [val_main_v15_apply, val_main_v14_apply, v8_at, val_main_v13_apply, val_main_v12_apply, v11_at,
    Ideal.hostUnary_exp_def, Ideal.subf_def]
  rfl

theorem v19_at (i : S2x16x2048x2048.Idx) :
    val_main_v19 (F := Ideal) x0 x1 i = attn (X x0) (Wt x1) (i 0) (i 1) (i 2) (i 3) := by
  rw [val_main_v19_apply, v15_at, val_main_v18_apply, val_main_v17_apply, val_main_v16_apply, val_main_cst_3_apply,
    Ideal.ofBits_def, Ideal.ofBits_zero_f32, zero_add, Ideal.hostDivf_def]
  exact congrArg (Ideal.div _) (Finset.sum_congr rfl fun k _ => v15_at x0 x1 _)

theorem v22_at (i : S2x2048x1024.Idx) :
    val_main_v22 (F := Ideal) x0 x1 i = ctx (X x0) (Wt x1) (i 0) (i 1) (i 2) := by
  rw [val_main_v22_apply, idx22]
  refine (val_main_v21_apply x0 x1 _).trans ((val_main_v20_apply x0 x1 _).trans (Finset.sum_congr rfl fun k _ => ?_))
  rw [v19_at, v2_at]
  exact congrArg (fun c => attn (X x0) (Wt x1) (i 0) (headOf (i 2)) (i 1) k * qp (X x0) (Wt x1) (i 0) k c) (col_headOf_lane (i 2))

theorem v26_at (i : S2x2048x1024.Idx) :
    val_main_v26 (F := Ideal) x0 x1 x2 x3 i
      = result (X x0) (Wt x1) (Wt x2) (fun e => x3 (ix1 e)) (i 0) (i 1) (i 2) := by
  rw [val_main_v26_apply, val_main_v23_apply, val_main_v25_apply, val_main_v24_apply, eq_ix1 (idx_main_v24 _),
    Ideal.addf_def]
  unfold result
  congr 1
  refine Finset.sum_congr rfl fun d _ => ?_
  rw [v22_at, eq_ix2 (ridx_main_v23 i d)]
  rfl

end Stages

/-- The reference program's result, as its run states it, is the specification of the four argument arrays. -/
theorem ref_eq_G (m : (ℓ : Loc nD τ sig) → Buf (Elt Ideal) ℓ) (c : Dev nD) :
    Cert.ReferenceIdeal.Value.res_main_v26 (F := Ideal) m c
      = Cert.Attn.G (m ((c.tc : Thread nD τ).loc main_arg0)) (m ((c.tc : Thread nD τ).loc main_arg1))
          (m ((c.tc : Thread nD τ).loc main_arg2)) (m ((c.tc : Thread nD τ).loc main_arg3)) := by
  refine (val_main_v26_eq (F := Ideal) m c).trans ?_
  exact funext fun i => v26_at _ _ _ _ i

end Cert.RefValue

end
-- ==== Proof.lean ====
/- Causal self-attention with the queries as keys and values (2 batches, 2048 positions, 16 heads of 64 features):
   both programs compute softmax(causal(q qᵀ / 8)) q · Woᵀ + bo per head with q = x · Wqᵀ over the extended reals. -/
import proofs.«408594_j31722628448459_3_alg».proof.Defs
import proofs.«408594_j31722628448459_3_alg».proof.Proof.KFrame
import proofs.«408594_j31722628448459_3_alg».proof.Proof.KIResult
import proofs.«408594_j31722628448459_3_alg».proof.Proof.RefValue
import proofs.«408594_j31722628448459_3_alg».proof.Proof.Gen.Pre_finite_inputs
import Idealize.ShloMosaic.Adequacy
import Idealize.ShloMosaic.Init

noncomputable section

namespace Cert.Proof

open Idealize.ShloMosaic Idealize.SL.Sem Cert.KernelIdeal

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Gen.facts) (hPre_finite_inputs := Cert.Pre_finite_inputs.Gen.facts) :=
  fun m ρ _ => Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The mask fill is read as -∞ at each of its sixteen sites. -/
theorem preserves : Cert.preserves_Kernel_KernelIdeal :=
  have h := IdealRules.named_const.statement κ "neg_big" .f32 0xF149F2CA#32 ⊥ rfl
  ⟨h, h, h, h, h, h, h, h, h, h, h, h, h, h, h, h⟩

theorem algebraic : Cert.algebraic_KernelIdeal_ReferenceIdeal (hKernelIdeal := Gen.facts)
    (hReferenceIdeal := Cert.ReferenceIdeal.Gen.facts) (hPre_finite_inputs := Cert.Pre_finite_inputs.Gen.facts) := by
  intro m ρ m' ρ' hpre hagree
  refine ⟨_, (θ_run defs _ _).mono (fun _ h c => ⟨(h c).1.trans (Hand.result_eq_G m ρ hpre c), (h c).2⟩) (Hand.run_result m ρ),
    (θ_run Cert.ReferenceIdeal.defs _ _).mono (fun _ h c => ⟨?_, (h c).2⟩) (Cert.ReferenceIdeal.Value.run (F := Ideal) m' ρ')⟩
  rw [(h c).1, Cert.RefValue.ref_eq_G, (hagree c).1, (hagree c).2.1, (hagree c).2.2.1, (hagree c).2.2.2]

theorem claim : Cert.Claim :=
  ⟨Cert.Kernel.Gen.facts, Gen.facts, Cert.ReferenceIdeal.Gen.facts, Cert.Pre_finite_inputs.Gen.facts,
    frame_k, frame_ki, frame_ri, preserves, algebraic⟩

end Cert.Proof

end
